-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S1x1600000 : Shape := ⟨2, ![1, 1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  bcast_S_S1x1600000 : S_.BroadcastsInDim S1x1600000 (![] : Fin 0 → Fin S1x1600000.rank)
  reducesTo_S1x1600000_S_d0_1 : S1x1600000.ReducesTo [0, 1] S_

variable [Facts]

def fn_part3 {F : FTy → Type} [FloatOps F] (main_arg1 : IVec S2x1600000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : IVec S1x1600000 32 := (extractStridedSlice S1x1600000 ![0, 0] · slices_S2x1600000_S1x1600000_0_0) main_arg1
  let main_c_20 : IVec S_ 32 := constantI S_ 32 0#32
  let main_v55 : IVec S1x1600000 32 := broadcastInDim S1x1600000 ![] bcast_S_S1x1600000 main_c_20
  let main_v56 : IVec S1x1600000 1 := cmpi .sge main_v54 main_v55
  let main_v57 : IVec S1x1600000 32 := (extractStridedSlice S1x1600000 ![0, 0] · slices_S2x1600000_S1x1600000_0_0) main_arg1
  let main_c_21 : IVec S_ 32 := constantI S_ 32 100000#32
  let main_v58 : IVec S1x1600000 32 := broadcastInDim S1x1600000 ![] bcast_S_S1x1600000 main_c_21
  let main_v59 : IVec S1x1600000 1 := cmpi .slt main_v57 main_v58
  let main_v60 : IVec S1x1600000 1 := andi main_v56 main_v59
  let main_c_22 : IVec S_ 1 := constantI S_ 1 1#1
  let main_v61 : IVec S_ 1 := (fun x v => Host.reduce IntOp.andi x v reducesTo_S1x1600000_S_d0_1 h_S_) main_v60 main_c_22
  let main_v62 : IVec S_ 1 := andi main_v53 main_v61
  main_v62

def fn_part2 {F : FTy → Type} [FloatOps F] (main_arg1 : IVec S2x1600000 32) (main_arg9 : FVec F S64x32 .f32) (main_arg10 : FVec F S32 .f32) (main_arg11 : FVec F S32x1 .f32) (main_arg12 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg11
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg1 main_v48 main_v49 main_v50

def fn_part1 {F : FTy → Type} [FloatOps F] (main_arg1 : IVec S2x1600000 32) (main_arg6 : FVec F S3x64 .f32) (main_arg7 : FVec F S3x64 .f32) (main_arg8 : FVec F S3x64 .f32) (main_arg9 : FVec F S64x32 .f32) (main_arg10 : FVec F S32 .f32) (main_arg11 : FVec F S32x1 .f32) (main_arg12 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S100000x64 .f32) (main_arg1 : IVec S2x1600000 32) (main_arg2 : IVec S100000 32) (main_arg3 : FVec F S3x64x64 .f32) (main_arg4 : FVec F S3x64 .f32) (main_arg5 : FVec F S3x64x64 .f32) (main_arg6 : FVec F S3x64 .f32) (main_arg7 : FVec F S3x64 .f32) (main_arg8 : FVec F S3x64 .f32) (main_arg9 : FVec F S64x32 .f32) (main_arg10 : FVec F S32 .f32) (main_arg11 : FVec F S32x1 .f32) (main_arg12 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg1 main_arg6 main_arg7 main_arg8 main_arg9 main_arg10 main_arg11 main_arg12 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S100096x64 : Shape := ⟨2, ![100096, 64]⟩
abbrev S100096 : Shape := ⟨1, ![100096]⟩
abbrev S1x100096 : Shape := ⟨2, ![1, 100096]⟩
abbrev S1x1600000 : Shape := ⟨2, ![1, 1600000]⟩
abbrev S1600000 : Shape := ⟨1, ![1600000]⟩
abbrev S128 : Shape := ⟨1, ![128]⟩
abbrev S100000x1 : Shape := ⟨2, ![100000, 1]⟩
abbrev S128x1 : Shape := ⟨2, ![128, 1]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5888x64 : Shape := ⟨2, ![5888, 64]⟩
abbrev S1x32 : Shape := ⟨2, ![1, 32]⟩
abbrev S1x1 : Shape := ⟨2, ![1, 1]⟩
abbrev S2944x64 : Shape := ⟨2, ![2944, 64]⟩
abbrev S1x2944 : Shape := ⟨2, ![1, 2944]⟩
abbrev S128x64 : Shape := ⟨2, ![128, 64]⟩
abbrev S128x2944 : Shape := ⟨2, ![128, 2944]⟩
abbrev S128x32 : Shape := ⟨2, ![128, 32]⟩

abbrev nBuf : Space → Nat
  | .hbm => 130
  | .vmem => 43
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S3x64, .f32⟩
  | 9 => ⟨S64x32, .f32⟩
  | 10 => ⟨S32, .f32⟩
  | 11 => ⟨S32x1, .f32⟩
  | 12 => ⟨S1, .f32⟩
  | 13 => ⟨S_, .i32⟩
  | 14 => ⟨S_, .f32⟩
  | 15 => ⟨S100096x64, .f32⟩
  | 16 => ⟨S_, .i32⟩
  | 17 => ⟨S_, .i32⟩
  | 18 => ⟨S100096, .i32⟩
  | 19 => ⟨S1x100096, .i32⟩
  | 20 => ⟨S1x1600000, .i32⟩
  | 21 => ⟨S1600000, .i32⟩
  | 22 => ⟨S1x1600000, .i32⟩
  | 23 => ⟨S1600000, .i32⟩
  | 24 => ⟨S_, .f32⟩
  | 25 => ⟨S100000, .f32⟩
  | 26 => ⟨S_, .f32⟩
  | 27 => ⟨S128, .f32⟩
  | 28 => ⟨S100000x1, .i32⟩
  | 29 => ⟨S128, .f32⟩
  | 30 => ⟨S128x1, .f32⟩
  | 31 => ⟨S100096x64, .bf16⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .bf16⟩
  | 41 => ⟨S1600000x64, .f32⟩
  | 42 => ⟨S_, .f32⟩
  | 43 => ⟨S100096x64, .f32⟩
  | 44 => ⟨S1600000x1, .i32⟩
  | 45 => ⟨S100096x64, .f32⟩
  | 46 => ⟨S1x64x64, .f32⟩
  | 47 => ⟨S64x64, .f32⟩
  | 48 => ⟨S1x64, .f32⟩
  | 49 => ⟨S64, .f32⟩
  | 50 => ⟨S1x64x64, .f32⟩
  | 51 => ⟨S64x64, .f32⟩
  | 52 => ⟨S1x64, .f32⟩
  | 53 => ⟨S64, .f32⟩
  | 54 => ⟨S1x64, .f32⟩
  | 55 => ⟨S64, .f32⟩
  | 56 => ⟨S1x64, .f32⟩
  | 57 => ⟨S64, .f32⟩
  | 58 => ⟨S1x64, .f32⟩
  | 59 => ⟨S1x64, .f32⟩
  | 60 => ⟨S1x64, .f32⟩
  | 61 => ⟨S1x64, .f32⟩
  | 62 => ⟨S100096x64, .f32⟩
  | 63 => ⟨S100096x64, .bf16⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x64, .bf16⟩
  | 73 => ⟨S1600000x64, .f32⟩
  | 74 => ⟨S_, .f32⟩
  | 75 => ⟨S100096x64, .f32⟩
  | 76 => ⟨S1600000x1, .i32⟩
  | 77 => ⟨S100096x64, .f32⟩
  | 78 => ⟨S1x64x64, .f32⟩
  | 79 => ⟨S64x64, .f32⟩
  | 80 => ⟨S1x64, .f32⟩
  | 81 => ⟨S64, .f32⟩
  | 82 => ⟨S1x64x64, .f32⟩
  | 83 => ⟨S64x64, .f32⟩
  | 84 => ⟨S1x64, .f32⟩
  | 85 => ⟨S64, .f32⟩
  | 86 => ⟨S1x64, .f32⟩
  | 87 => ⟨S64, .f32⟩
  | 88 => ⟨S1x64, .f32⟩
  | 89 => ⟨S64, .f32⟩
  | 90 => ⟨S1x64, .f32⟩
  | 91 => ⟨S1x64, .f32⟩
  | 92 => ⟨S1x64, .f32⟩
  | 93 => ⟨S1x64, .f32⟩
  | 94 => ⟨S100096x64, .f32⟩
  | 95 => ⟨S100096x64, .bf16⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .bf16⟩
  | 105 => ⟨S1600000x64, .f32⟩
  | 106 => ⟨S_, .f32⟩
  | 107 => ⟨S100096x64, .f32⟩
  | 108 => ⟨S1600000x1, .i32⟩
  | 109 => ⟨S100096x64, .f32⟩
  | 110 => ⟨S1x32, .f32⟩
  | 111 => ⟨S1x1, .f32⟩
  | 112 => ⟨S1x64x64, .f32⟩
  | 113 => ⟨S64x64, .f32⟩
  | 114 => ⟨S1x64, .f32⟩
  | 115 => ⟨S64, .f32⟩
  | 116 => ⟨S1x64x64, .f32⟩
  | 117 => ⟨S64x64, .f32⟩
  | 118 => ⟨S1x64, .f32⟩
  | 119 => ⟨S64, .f32⟩
  | 120 => ⟨S1x64, .f32⟩
  | 121 => ⟨S64, .f32⟩
  | 122 => ⟨S1x64, .f32⟩
  | 123 => ⟨S64, .f32⟩
  | 124 => ⟨S1x64, .f32⟩
  | 125 => ⟨S1x64, .f32⟩
  | 126 => ⟨S1x64, .f32⟩
  | 127 => ⟨S1x64, .f32⟩
  | _ => ⟨S100000x64, .f32⟩

abbrev hbmTy0_1 (i : Nat) : BufTy := match i % 128 with
  | 0 => ⟨S128x1, .f32⟩
  | 1 => ⟨S128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5888x64, .f32⟩
  | .local _ .vmem, ⟨1, _⟩ => ⟨S5888x64, .f32⟩
  | .local _ .vmem, ⟨2, _⟩ => ⟨S5888x64, .f32⟩
  | .local _ .vmem, ⟨3, _⟩ => ⟨S5888x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S5888x64, .f32⟩
  | .local _ .vmem, ⟨11, _⟩ => ⟨S5888x64, .f32⟩
  | .local _ .vmem, ⟨12, _⟩ => ⟨S5888x64, .f32⟩
  | .local _ .vmem, ⟨13, _⟩ => ⟨S5888x64, .f32⟩
  | .local _ .vmem, ⟨14, _⟩ => ⟨S5888x64, .f32⟩
  | .local _ .vmem, ⟨15, _⟩ => ⟨S5888x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S5888x64, .f32⟩
  | .local _ .vmem, ⟨23, _⟩ => ⟨S5888x64, .f32⟩
  | .local _ .vmem, ⟨24, _⟩ => ⟨S2944x64, .f32⟩
  | .local _ .vmem, ⟨25, _⟩ => ⟨S2944x64, .f32⟩
  | .local _ .vmem, ⟨26, _⟩ => ⟨S2944x64, .f32⟩
  | .local _ .vmem, ⟨27, _⟩ => ⟨S2944x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x2944, .i32⟩
  | .local _ .vmem, ⟨35, _⟩ => ⟨S1x2944, .i32⟩
  | .local _ .vmem, ⟨36, _⟩ => ⟨S128x1, .f32⟩
  | .local _ .vmem, ⟨37, _⟩ => ⟨S64x32, .f32⟩
  | .local _ .vmem, ⟨38, _⟩ => ⟨S1x32, .f32⟩
  | .local _ .vmem, ⟨39, _⟩ => ⟨S32x1, .f32⟩
  | .local _ .vmem, ⟨40, _⟩ => ⟨S1x1, .f32⟩
  | .local _ .vmem, ⟨41, _⟩ => ⟨S128x1, .f32⟩
  | .local _ .vmem, ⟨42, _⟩ => ⟨S128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_c_0 : Ref sig .tc := ⟨.hbm, 16, rfl⟩
abbrev main_call1_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_5 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_8 : Ref sig .tc := ⟨.hbm, 96, rfl⟩
abbrev main_v71 : Ref sig .tc := ⟨.hbm, 97, rfl⟩
abbrev main_v72 : Ref sig .tc := ⟨.hbm, 98, rfl⟩
abbrev main_c_9 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_10 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc2_stg9_0 : Ref sig .tc := ⟨.vmem, 36, rfl⟩
abbrev cc2_stg10_0 : Ref sig .tc := ⟨.vmem, 37, rfl⟩
abbrev cc2_stg11_0 : Ref sig .tc := ⟨.vmem, 38, rfl⟩
abbrev cc2_stg12_0 : Ref sig .tc := ⟨.vmem, 39, rfl⟩
abbrev cc2_stg13_0 : Ref sig .tc := ⟨.vmem, 40, rfl⟩
abbrev cc2_stg14_0 : Ref sig .tc := ⟨.vmem, 41, rfl⟩
abbrev cc2_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc2_sem9_0 : DmaSem sig := 36
abbrev cc2_sem10_0 : DmaSem sig := 37
abbrev cc2_sem11_0 : DmaSem sig := 38
abbrev cc2_sem12_0 : DmaSem sig := 39
abbrev cc2_sem13_0 : DmaSem sig := 40
abbrev cc2_sem14_0 : DmaSem sig := 41

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5888x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5888x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5888x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5888x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5888x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5888x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![34], ![false]⟩

def k2_cond2 (i : grid2.Coords) : BitVec 1 :=
  let arg0 : BitVec 32 := BitVec.ofNat 32 (i 0).val
  let c33_i32 : BitVec 32 := 33#32
  let v53 : BitVec 1 := Scalar.cmpi .eq arg0 c33_i32
  let v54 : BitVec 32 := Scalar.extui v53
  let c0_i32_26 : BitVec 32 := 0#32
  let v55 : BitVec 1 := Scalar.cmpi .ne v54 c0_i32_26
  v55

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2944x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2944x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1x2944 .i32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S128x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x32 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x32 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S32x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x1 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

class Facts₀ : Prop where
  pads_S100000x64_S100096x64_0960_000 : S100000x64.Pads (![0, 0] : Fin 2 → Nat) ![96, 0] ![0, 0] S100096x64
  h_S_ : 0 < S_.numel
  pads_S100000_S100096_0960 : S100000.Pads (![0] : Fin 1 → Nat) ![96] ![0] S100096
  shapeCasts_S100096_S1x100096 : S100096.ShapeCasts S1x100096
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S128 : S_.BroadcastsInDim S128 (![] : Fin 0 → Fin S128.rank)
  bcast_S100000_S100000x1_0 : S100000.BroadcastsInDim S100000x1 (![0] : Fin 1 → Fin S100000x1.rank)
  shapeCasts_S128_S128x1 : S128.ShapeCasts S128x1
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100096x64 : S_.BroadcastsInDim S100096x64 (![] : Fin 0 → Fin S100096x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5888x64_S5888x64_0_0 : ∀ a, (![0, 0] : Fin 2 → Nat) a + S5888x64.size a ≤ S5888x64.size a
  h_S5888x64 : 0 < S5888x64.numel
  shapeCasts_S5888x64_S5888x64 : S5888x64.ShapeCasts S5888x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5888x64 : S1x64.Broadcasts S5888x64
  slices_S3x64x64_S1x64x64_1_0_0 : S3x64x64.Slices ![1, 0, 0] S1x64x64
  slices_S3x64_S1x64_1_0 : S3x64.Slices ![1, 0] S1x64
  shapeCasts_S32_S1x32 : S32.ShapeCasts S1x32
  shapeCasts_S1_S1x1 : S1.ShapeCasts S1x1
  slices_S3x64x64_S1x64x64_2_0_0 : S3x64x64.Slices ![2, 0, 0] S1x64x64
  slices_S3x64_S1x64_2_0 : S3x64.Slices ![2, 0] S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2944x64_S2944x64_0_0 : ∀ a, (![0, 0] : Fin 2 → Nat) a + S2944x64.size a ≤ S2944x64.size a
  h_S2944x64 : 0 < S2944x64.numel
  shapeCasts_S2944x64_S2944x64 : S2944x64.ShapeCasts S2944x64
  broadcasts_S1x64_S2944x64 : S1x64.Broadcasts S2944x64
  inb_S1x2944_S1x2944_0_0 : ∀ a, (![0, 0] : Fin 2 → Nat) a + S1x2944.size a ≤ S1x2944.size a
  h_S1x2944 : 0 < S1x2944.numel
  shapeCasts_S1x2944_S1x2944 : S1x2944.ShapeCasts S1x2944
  iota_S128x2944_d0_w32 : S128x2944.Iotas .tc 32 [0]
  broadcasts_S1x2944_S128x2944 : S1x2944.Broadcasts S128x2944
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  shapeCasts_S128x1_S128 : S128x1.ShapeCasts S128
  scatter_S128_S100000x1_S100000_n_0_0_1_wf : ScatterDims.WF S128 S100000x1 S100000 [] [0] [0] 1
  gather_S100096x64_S1600000x1_S1600000x64_1_0_n_n_0_1_164_wf : GatherDims.WF S100096x64 S1600000x1 S1600000x64 [1] [0] [] [0] [] 1 ![1, 64]
  scatter_S100096x64_S1600000x1_S1600000x64_1_0_0_1_wf : ScatterDims.WF S100096x64 S1600000x1 S1600000x64 [1] [0] [0] 1
  dot_S5888x64_S64x64_S5888x64_1_0_0_1_n_n_wf : DotDims.WF S5888x64 S64x64 S5888x64 [1] [0] [0] [1] [] []
  dot_S2944x64_S64x64_S2944x64_1_0_0_1_n_n_wf : DotDims.WF S2944x64 S64x64 S2944x64 [1] [0] [0] [1] [] []
  dot_S128x2944_S2944x64_S128x64_1_0_0_1_n_n_wf : DotDims.WF S128x2944 S2944x64 S128x64 [1] [0] [0] [1] [] []
  dot_S128x64_S64x32_S128x32_1_0_0_1_n_n_wf : DotDims.WF S128x64 S64x32 S128x32 [1] [0] [0] [1] [] []
  dot_S128x32_S32x1_S128x1_1_0_0_1_n_n_wf : DotDims.WF S128x32 S32x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5888x64.size a ≤ S100096x64.size a
  hwx0_0 : ∀ i : grid0.Coords, EltTy.bits .f32 = 32 ∨ (Rect.block (s := S100096x64) S5888x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5888x64.size a ≤ S100096x64.size a
  hwx0_1 : ∀ i : grid0.Coords, EltTy.bits .f32 = 32 ∨ (Rect.block (s := S100096x64) S5888x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5888x64.size a ≤ S100096x64.size a
  hwx0_8 : ∀ i : grid0.Coords, EltTy.bits .f32 = 32 ∨ (Rect.block (s := S100096x64) S5888x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5888x64.size a ≤ S100096x64.size a
  hwx1_0 : ∀ i : grid1.Coords, EltTy.bits .f32 = 32 ∨ (Rect.block (s := S100096x64) S5888x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5888x64.size a ≤ S100096x64.size a
  hwx1_1 : ∀ i : grid1.Coords, EltTy.bits .f32 = 32 ∨ (Rect.block (s := S100096x64) S5888x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5888x64.size a ≤ S100096x64.size a
  hwx1_8 : ∀ i : grid1.Coords, EltTy.bits .f32 = 32 ∨ (Rect.block (s := S100096x64) S5888x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2944x64.size a ≤ S100096x64.size a
  hwx2_0 : ∀ i : grid2.Coords, EltTy.bits .f32 = 32 ∨ (Rect.block (s := S100096x64) S2944x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2944x64.size a ≤ S100096x64.size a
  hwx2_1 : ∀ i : grid2.Coords, EltTy.bits .f32 = 32 ∨ (Rect.block (s := S100096x64) S2944x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x2944.size a ≤ S1x100096.size a
  hwx2_8 : ∀ i : grid2.Coords, EltTy.bits .i32 = 32 ∨ (Rect.block (s := S1x100096) S1x2944.size (cc2_transform_8 i) (hinb2_8 i)).WholeWords (EltTy.packing .i32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x1.size a ≤ S128x1.size a
  hwx2_9 : ∀ i : grid2.Coords, EltTy.bits .f32 = 32 ∨ (Rect.block (s := S128x1) S128x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x32.size a ≤ S64x32.size a
  hwx2_10 : ∀ i : grid2.Coords, EltTy.bits .f32 = 32 ∨ (Rect.block (s := S64x32) S64x32.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x32.size a ≤ S1x32.size a
  hwx2_11 : ∀ i : grid2.Coords, EltTy.bits .f32 = 32 ∨ (Rect.block (s := S1x32) S1x32.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S32x1.size a ≤ S32x1.size a
  hwx2_12 : ∀ i : grid2.Coords, EltTy.bits .f32 = 32 ∨ (Rect.block (s := S32x1) S32x1.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x1.size a ≤ S1x1.size a
  hwx2_13 : ∀ i : grid2.Coords, EltTy.bits .f32 = 32 ∨ (Rect.block (s := S1x1) S1x1.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128x1.size a ≤ S128x1.size a
  hwx2_14 : ∀ i : grid2.Coords, EltTy.bits .f32 = 32 ∨ (Rect.block (s := S128x1) S128x1.size (cc2_transform_14 i) (hinb2_14 i)).WholeWords (EltTy.packing .f32)

variable [Facts₀]

def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def gather_S100096x64_S1600000x1_S1600000x64_1_0_n_n_0_1_164 : GatherDims S100096x64 S1600000x1 S1600000x64 where
  offsetDims := [1]
  collapsedSliceDims := [0]
  operandBatchingDims := []
  startIndicesBatchingDims := []
  startIndexMap := [0]
  indexVectorDim := 1
  sliceSizes := ![1, 64]
  wf := gather_S100096x64_S1600000x1_S1600000x64_1_0_n_n_0_1_164_wf
def scatter_S100096x64_S1600000x1_S1600000x64_1_0_0_1 : ScatterDims S100096x64 S1600000x1 S1600000x64 where
  updateWindowDims := [1]
  insertedWindowDims := [0]
  scatterDimsToOperandDims := [0]
  indexVectorDim := 1
  wf := scatter_S100096x64_S1600000x1_S1600000x64_1_0_0_1_wf
def dot_S5888x64_S64x64_S5888x64_1_0_0_1_n_n : DotDims S5888x64 S64x64 S5888x64 where
  lhsContracting := [1]
  rhsContracting := [0]
  lhsNonContracting := [0]
  rhsNonContracting := [1]
  lhsBatch := []
  rhsBatch := []
  wf := dot_S5888x64_S64x64_S5888x64_1_0_0_1_n_n_wf
def dot_S2944x64_S64x64_S2944x64_1_0_0_1_n_n : DotDims S2944x64 S64x64 S2944x64 where
  lhsContracting := [1]
  rhsContracting := [0]
  lhsNonContracting := [0]
  rhsNonContracting := [1]
  lhsBatch := []
  rhsBatch := []
  wf := dot_S2944x64_S64x64_S2944x64_1_0_0_1_n_n_wf
def dot_S128x2944_S2944x64_S128x64_1_0_0_1_n_n : DotDims S128x2944 S2944x64 S128x64 where
  lhsContracting := [1]
  rhsContracting := [0]
  lhsNonContracting := [0]
  rhsNonContracting := [1]
  lhsBatch := []
  rhsBatch := []
  wf := dot_S128x2944_S2944x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

abbrev win0_0 : Pipeline.Window sig grid0 :=
  Pipeline.Window.ofSpec (Memref.whole main_v0) S5888x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5888x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S5888x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v40) S5888x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S5888x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v68) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v69) S5888x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v69) S2944x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S2944x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v96) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v97) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v98) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v99) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v2) S1x2944.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v11) S128x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg9) S64x32.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v82) S1x32.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg11) S32x1.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v83) S1x1.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v100) S128x1.size cc2_transform_14 reads2_14 true true 1 stage2_14 sem2_14
    hrank2 hreads2_14 hinb2_14 nbuf2_14 (Memref.isWhole_whole _) hwx2_14 hstage2_14

abbrev win2 : Fin 15 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | ⟨_ + 15, h⟩ => absurd h (Nat.not_lt.2 (Nat.le_add_left _ _))
abbrev spec2 : Fin 15 → Pipeline.WinSpec sig grid2.rank := fun w => (win2 w).toWinSpec

abbrev idle2 : Fin 15 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k2_cond2 i == 1#1) | ⟨_ + 15, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S128 : Shape := ⟨1, ![128]⟩
abbrev S100000x1 : Shape := ⟨2, ![100000, 1]⟩
abbrev S128x64 : Shape := ⟨2, ![128, 64]⟩
abbrev S128x1 : Shape := ⟨2, ![128, 1]⟩
abbrev S128x32 : Shape := ⟨2, ![128, 32]⟩
abbrev S1x32 : Shape := ⟨2, ![1, 32]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64x64, .f32⟩
  | 6 => ⟨S3x64, .f32⟩
  | 7 => ⟨S3x64, .f32⟩
  | 8 => ⟨S3x64, .f32⟩
  | 9 => ⟨S64x32, .f32⟩
  | 10 => ⟨S32, .f32⟩
  | 11 => ⟨S32x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S1x64x64, .f32⟩
  | 35 => ⟨S64x64, .f32⟩
  | 36 => ⟨S100000x64, .f32⟩
  | 37 => ⟨S1x64, .f32⟩
  | 38 => ⟨S64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S1x64x64, .f32⟩
  | 46 => ⟨S64x64, .f32⟩
  | 47 => ⟨S100000x64, .f32⟩
  | 48 => ⟨S1x64, .f32⟩
  | 49 => ⟨S64, .f32⟩
  | 50 => ⟨S1x64, .f32⟩
  | 51 => ⟨S100000x64, .f32⟩
  | 52 => ⟨S100000x64, .f32⟩
  | 53 => ⟨S1x64, .f32⟩
  | 54 => ⟨S64, .f32⟩
  | 55 => ⟨S1x64, .f32⟩
  | 56 => ⟨S100000x64, .f32⟩
  | 57 => ⟨S100000x64, .f32⟩
  | 58 => ⟨S1x64, .f32⟩
  | 59 => ⟨S64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x64, .f32⟩
  | 75 => ⟨S_, .f32⟩
  | 76 => ⟨S100000x64, .f32⟩
  | 77 => ⟨S1600000x1, .i32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S1x64x64, .f32⟩
  | 84 => ⟨S64x64, .f32⟩
  | 85 => ⟨S100000x64, .f32⟩
  | 86 => ⟨S1x64, .f32⟩
  | 87 => ⟨S64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S1x64x64, .f32⟩
  | 95 => ⟨S64x64, .f32⟩
  | 96 => ⟨S100000x64, .f32⟩
  | 97 => ⟨S1x64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S64, .f32⟩
  | 104 => ⟨S1x64, .f32⟩
  | 105 => ⟨S100000x64, .f32⟩
  | 106 => ⟨S100000x64, .f32⟩
  | 107 => ⟨S1x64, .f32⟩
  | 108 => ⟨S64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x64, .f32⟩

abbrev hbmTy0_1 (i : Nat) : BufTy := match i % 128 with
  | 0 => ⟨S_, .f32⟩
  | 1 => ⟨S100000x64, .f32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S1x64, .f32⟩
  | 8 => ⟨S64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S1x64x64, .f32⟩
  | 16 => ⟨S64x64, .f32⟩
  | 17 => ⟨S100000x64, .f32⟩
  | 18 => ⟨S1x64, .f32⟩
  | 19 => ⟨S64, .f32⟩
  | 20 => ⟨S1x64, .f32⟩
  | 21 => ⟨S100000x64, .f32⟩
  | 22 => ⟨S100000x64, .f32⟩
  | 23 => ⟨S1x64, .f32⟩
  | 24 => ⟨S64, .f32⟩
  | 25 => ⟨S1x64, .f32⟩
  | 26 => ⟨S100000x64, .f32⟩
  | 27 => ⟨S100000x64, .f32⟩
  | 28 => ⟨S1x64, .f32⟩
  | 29 => ⟨S64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S_, .f32⟩
  | 37 => ⟨S100000, .f32⟩
  | 38 => ⟨S_, .f32⟩
  | 39 => ⟨S128, .f32⟩
  | 40 => ⟨S100000x1, .i32⟩
  | 41 => ⟨S128, .f32⟩
  | 42 => ⟨S_, .f32⟩
  | 43 => ⟨S128x64, .f32⟩
  | 44 => ⟨S100000x1, .i32⟩
  | 45 => ⟨S128x64, .f32⟩
  | 46 => ⟨S_, .f32⟩
  | 47 => ⟨S128, .f32⟩
  | 48 => ⟨S128, .f32⟩
  | 49 => ⟨S128x1, .f32⟩
  | 50 => ⟨S128x64, .f32⟩
  | 51 => ⟨S128x64, .f32⟩
  | 52 => ⟨S128x32, .f32⟩
  | 53 => ⟨S1x32, .f32⟩
  | 54 => ⟨S128x32, .f32⟩
  | 55 => ⟨S128x32, .f32⟩
  | 56 => ⟨S_, .f32⟩
  | 57 => ⟨S128x32, .f32⟩
  | 58 => ⟨S128x32, .f32⟩
  | 59 => ⟨S128x1, .f32⟩
  | 60 => ⟨S1x1, .f32⟩
  | 61 => ⟨S128x1, .f32⟩
  | 62 => ⟨S128x1, .f32⟩
  | 63 => ⟨S128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_c_2 : Ref sig .tc := ⟨.hbm, 66, rfl⟩
abbrev main_v45 : Ref sig .tc := ⟨.hbm, 67, rfl⟩
abbrev main_v46 : Ref sig .tc := ⟨.hbm, 68, rfl⟩
abbrev main_c_3 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_4 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_5 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call3_cst : Ref sig .tc := ⟨.hbm, 112, rfl⟩
abbrev main_call3_v0 : Ref sig .tc := ⟨.hbm, 113, rfl⟩
abbrev main_v85 : Ref sig .tc := ⟨.hbm, 114, rfl⟩
abbrev main_c_6 : Ref sig .tc := ⟨.hbm, 115, rfl⟩
abbrev main_v86 : Ref sig .tc := ⟨.hbm, 116, rfl⟩
abbrev main_v87 : Ref sig .tc := ⟨.hbm, 117, rfl⟩
abbrev main_c_7 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_8 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_9 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_call4_cst : Ref sig .tc := ⟨.hbm, 140, rfl⟩
abbrev main_call4_v0 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_call5_cst : Ref sig .tc := ⟨.hbm, 161, rfl⟩
abbrev main_call5_v0 : Ref sig .tc := ⟨.hbm, 162, rfl⟩
abbrev main_v126 : Ref sig .tc := ⟨.hbm, 163, rfl⟩
abbrev main_cst_10 : Ref sig .tc := ⟨.hbm, 164, rfl⟩
abbrev main_v127 : Ref sig .tc := ⟨.hbm, 165, rfl⟩
abbrev main_cst_11 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_12 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_13 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_call6_cst : Ref sig .tc := ⟨.hbm, 184, rfl⟩
abbrev main_call6_v0 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S100000 : S_.BroadcastsInDim S100000 (![] : Fin 0 → Fin S100000.rank)
  bcast_S_S128 : S_.BroadcastsInDim S128 (![] : Fin 0 → Fin S128.rank)
  bcast_S100000_S100000x1_0 : S100000.BroadcastsInDim S100000x1 (![0] : Fin 1 → Fin S100000x1.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1
  dot_S128x64_S64x32_S128x32_1_0_0_1_n_n_wf : DotDims.WF S128x64 S64x32 S128x32 [1] [0] [0] [1] [] []
  dot_S128x32_S32x1_S128x1_1_0_0_1_n_n_wf : DotDims.WF S128x32 S32x1 S128x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

class Facts : Prop extends Facts₀ where

variable [Facts]
-- ==== Proof.KB.RegA0.lean ====
import proofs.«413317_j72215580115596_2_alg».proof.Proof.Gen.Kernel.Launch
import proofs.«413317_j72215580115596_2_alg».proof.Proof.Gen.Kernel.Skeleton
import proofs.«413317_j72215580115596_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0_big : Rect S5888x64 := Rect.unit (s := S5888x64) ![0, 0] S5888x64.size inb_S5888x64_S5888x64_0_0
abbrev rA0_w : Rect S64x64 := Rect.unit (s := S64x64) ![0, 0] S64x64.size inb_S64x64_S64x64_0_0
abbrev rA0_v : Rect S1x64 := Rect.unit (s := S1x64) ![0, 0] S1x64.size inb_S1x64_S1x64_0_0

def out0_8 (x0 x1 : Vec F S5888x64 .f32) (x2 : Vec F S64x64 .f32) (x3 : Vec F S1x64 .f32) (x4 : Vec F S64x64 .f32)
    (x5 x6 x7 : Vec F S1x64 .f32) : Vec F S5888x64 .f32 :=
  View.canon [⟨rA0_big, k0_pay1 (View.ld x0 rA0_big) (View.ld x1 rA0_big) (View.ld x2 rA0_w) (View.ld x3 rA0_v)
    (View.ld x4 rA0_w) (View.ld x5 rA0_v) (View.ld x6 rA0_v) (View.ld x7 rA0_v)⟩]

set_option maxHeartbeats 1000000 in
-- One store covers the whole block, so afterwards the output reads as that store's value.
theorem sound_kernel0 (c : Dev nD) (E : Set ℕ) (i : grid0.Coords) (arg1 arg2 arg9 : Memref sig .tc .vmem S5888x64 .f32)
    (arg3 arg5 : Memref sig .tc .vmem S64x64 .f32) (arg4 arg6 arg7 arg8 : Memref sig .tc .vmem S1x64 .f32)
    (harg1 : arg1.IsWhole) (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole)
    (x0 x1 : Vec F S5888x64 .f32) (x2 : Vec F S64x64 .f32) (x3 : Vec F S1x64 .f32) (x4 : Vec F S64x64 .f32) (x5 x6 x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S5888x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t)
        (iblk0 V c 5 t) (iblk0 V c 6 t) (iblk0 V c 7 t)
  Φ _ := Pipeline.ΦA spec0 c
  q _ := fullShare
  owed _ := 0

theorem after0_8 (c : Dev nD) (t : Fin cfg0.N) : (dat0 V c).after 8 t
    = out0_8 (iblk0 V c 0 t) (iblk0 V c 1 t) (iblk0 V c 2 t) (iblk0 V c 3 t) (iblk0 V c 4 t)
        (iblk0 V c 5 t) (iblk0 V c 6 t) (iblk0 V c 7 t) := by dsimp only [dat0]

-- The body changes no input, and points with equal block index read equal blocks: before every point an input reads as that point's block.
theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t)
    ∧ (∀ d, (dat0 V c).before 6 t d = iblk0 V c 6 t) ∧ (∀ d, (dat0 V c).before 7 t d = iblk0 V c 7 t) := by
  refine ⟨fun d => ?_, fun d => ?_, fun d => ?_, fun d => ?_, fun d => ?_, fun d => ?_, fun d => ?_, fun d => ?_⟩ <;>
    refine ((dat0 V c).before_in_eq_fetched _ rfl (fun _ => rfl) (fun _ _ _ => rfl) (fun t => ?_) t d).trans ?_ <;>
    (try unfold Dat.fetched) <;> unfold Dat.blockOf <;> dsimp only [dat0, iblk0] <;> rfl

-- With the inputs at their blocks the body's triple applies as it stands; the invariant and the obligations carry through unchanged.
theorem sound_body0 (c : Dev nD) (t : Fin cfg0.N) :
    iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))
    ⊢ wp frame (wpE (defs₀ (F := F)) Variants.none c none) Set.univ (bodyAt0 t) (fun _ => iprop((dat0 V c).Φ t.castSucc ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare (iblk0 V c 5 t)
    ∗ owns (c : Thread nD τ) (st0_6 t) fullShare (iblk0 V c 6 t)
    ∗ owns (c : Thread nD τ) (st0_7 t) fullShare (iblk0 V c 7 t)
    ∗ owns (c : Thread nD τ) (st0_8 t) fullShare ((dat0 V c).after 8 t))) := by
  obtain ⟨h0, h1, h2, h3, h4, h5, h6, h7⟩ := before0 V c t
  simp only [h0, h1, h2, h3, h4, h5, h6, h7]
  rw [after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.RegA1.lean ====
import proofs.«413317_j72215580115596_2_alg».proof.Proof.Gen.Kernel.Launch
import proofs.«413317_j72215580115596_2_alg».proof.Proof.Gen.Kernel.Skeleton
import proofs.«413317_j72215580115596_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1_big : Rect S5888x64 := Rect.unit (s := S5888x64) ![0, 0] S5888x64.size inb_S5888x64_S5888x64_0_0
abbrev rA1_w : Rect S64x64 := Rect.unit (s := S64x64) ![0, 0] S64x64.size inb_S64x64_S64x64_0_0
abbrev rA1_v : Rect S1x64 := Rect.unit (s := S1x64) ![0, 0] S1x64.size inb_S1x64_S1x64_0_0

def out1_8 (x0 x1 : Vec F S5888x64 .f32) (x2 : Vec F S64x64 .f32) (x3 : Vec F S1x64 .f32) (x4 : Vec F S64x64 .f32)
    (x5 x6 x7 : Vec F S1x64 .f32) : Vec F S5888x64 .f32 :=
  View.canon [⟨rA1_big, k1_pay1 (View.ld x0 rA1_big) (View.ld x1 rA1_big) (View.ld x2 rA1_w) (View.ld x3 rA1_v)
    (View.ld x4 rA1_w) (View.ld x5 rA1_v) (View.ld x6 rA1_v) (View.ld x7 rA1_v)⟩]

set_option maxHeartbeats 1000000 in
-- One store covers the whole block, so afterwards the output reads as that store's value.
theorem sound_kernel1 (c : Dev nD) (E : Set ℕ) (i : grid1.Coords) (arg1 arg2 arg9 : Memref sig .tc .vmem S5888x64 .f32)
    (arg3 arg5 : Memref sig .tc .vmem S64x64 .f32) (arg4 arg6 arg7 arg8 : Memref sig .tc .vmem S1x64 .f32)
    (harg1 : arg1.IsWhole) (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole)
    (x0 x1 : Vec F S5888x64 .f32) (x2 : Vec F S64x64 .f32) (x3 : Vec F S1x64 .f32) (x4 : Vec F S64x64 .f32) (x5 x6 x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S5888x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t)
        (iblk1 V c 5 t) (iblk1 V c 6 t) (iblk1 V c 7 t)
  Φ _ := Pipeline.ΦA spec1 c
  q _ := fullShare
  owed _ := 0

theorem after1_8 (c : Dev nD) (t : Fin cfg1.N) : (dat1 V c).after 8 t
    = out1_8 (iblk1 V c 0 t) (iblk1 V c 1 t) (iblk1 V c 2 t) (iblk1 V c 3 t) (iblk1 V c 4 t)
        (iblk1 V c 5 t) (iblk1 V c 6 t) (iblk1 V c 7 t) := by dsimp only [dat1]

-- The body changes no input, and points with equal block index read equal blocks: before every point an input reads as that point's block.
theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t)
    ∧ (∀ d, (dat1 V c).before 6 t d = iblk1 V c 6 t) ∧ (∀ d, (dat1 V c).before 7 t d = iblk1 V c 7 t) := by
  refine ⟨fun d => ?_, fun d => ?_, fun d => ?_, fun d => ?_, fun d => ?_, fun d => ?_, fun d => ?_, fun d => ?_⟩ <;>
    refine ((dat1 V c).before_in_eq_fetched _ rfl (fun _ => rfl) (fun _ _ _ => rfl) (fun t => ?_) t d).trans ?_ <;>
    (try unfold Dat.fetched) <;> unfold Dat.blockOf <;> dsimp only [dat1, iblk1] <;> rfl

-- With the inputs at their blocks the body's triple applies as it stands; the invariant and the obligations carry through unchanged.
theorem sound_body1 (c : Dev nD) (t : Fin cfg1.N) :
    iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))
    ⊢ wp frame (wpE (defs₀ (F := F)) Variants.none c none) Set.univ (bodyAt1 t) (fun _ => iprop((dat1 V c).Φ t.castSucc ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare (iblk1 V c 6 t)
    ∗ owns (c : Thread nD τ) (st1_7 t) fullShare (iblk1 V c 7 t)
    ∗ owns (c : Thread nD τ) (st1_8 t) fullShare ((dat1 V c).after 8 t))) := by
  obtain ⟨h0, h1, h2, h3, h4, h5, h6, h7⟩ := before1 V c t
  simp only [h0, h1, h2, h3, h4, h5, h6, h7]
  rw [after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.RegR2.lean ====
import proofs.«413317_j72215580115596_2_alg».proof.Proof.Gen.Kernel.Launch
import proofs.«413317_j72215580115596_2_alg».proof.Proof.Gen.Kernel.Skeleton
import proofs.«413317_j72215580115596_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem N2_last : 33 < cfg2.N := by rw [show cfg2.N = 34 from N_2]; decide
abbrev tLast2 : Fin cfg2.N := ⟨33, N2_last⟩

def pre2 (c : Dev nD) (t : Fin cfg2.N) : FVec F S2944x64 .f32 :=
  k2_pay4 (iblk2 V c 0 t) (iblk2 V c 1 t) (iblk2 V c 2 t) (iblk2 V c 3 t) (iblk2 V c 4 t) (iblk2 V c 5 t) (iblk2 V c 6 t) (iblk2 V c 7 t)

def accAt2 (c : Dev nD) : (n : ℕ) → n < cfg2.N → Vec F S128x64 .f32
  | 0, hn => k2_pay1 (pre2 V c ⟨0, hn⟩) (Scalar.ofBits .f32 0x00000000#32) (iblk2 V c 8 ⟨0, hn⟩) (k2_pay3 (F := F))
  | n + 1, hn => k2_pay1 (pre2 V c ⟨n + 1, hn⟩) (Scalar.ofBits .f32 0x00000000#32) (iblk2 V c 8 ⟨n + 1, hn⟩)
      (accAt2 c n (Nat.lt_of_succ_lt hn))

theorem accAt2_zero (c : Dev nD) (hn : 0 < cfg2.N) :
    accAt2 V c 0 hn = k2_pay1 (pre2 V c ⟨0, hn⟩) (Scalar.ofBits .f32 0x00000000#32) (iblk2 V c 8 ⟨0, hn⟩) (k2_pay3 (F := F)) := rfl
theorem accAt2_succ (c : Dev nD) (n : ℕ) (hn : n + 1 < cfg2.N) :
    accAt2 V c (n + 1) hn = k2_pay1 (pre2 V c ⟨n + 1, hn⟩) (Scalar.ofBits .f32 0x00000000#32) (iblk2 V c 8 ⟨n + 1, hn⟩)
      (accAt2 V c n (Nat.lt_of_succ_lt hn)) := rfl

def out2_14 (c : Dev nD) : Vec F S128x1 .f32 :=
  k2_pay2 (accAt2 V c 33 N2_last) (iblk2 V c 9 tLast2) (iblk2 V c 10 tLast2) (iblk2 V c 11 tLast2) (iblk2 V c 12 tLast2) (iblk2 V c 13 tLast2)

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
abbrev cond2_1 (i : grid2.Coords) : Prop := k2_cond2 i = 1#1
theorem hcond2_1 : ∀ t : Fin cfg2.N, cond2_1 (grid2.coords t) ↔ t.val = 33 :=
  (by decide +kernel : ∀ t : Fin grid2.N, cond2_1 (grid2.coords t) ↔ t.val = 33)

theorem idleAt2_14 : ∀ t : Fin cfg2.N, ¬cond2_1 (grid2.coords t) → cfg2.idle 14 (grid2.coords t) = true := by decide +kernel
theorem noFlush2_14 : ∀ t : Fin cfg2.N, ¬cond2_1 (grid2.coords t) → (cfg2.win 14).flush t = false := by decide +kernel
theorem liveAt2_14 : ∀ t : Fin cfg2.N, cond2_1 (grid2.coords t) → cfg2.idle 14 (grid2.coords t) = false := by decide +kernel

abbrev scM2 : Memref sig .tc .vmem S128x64 .f32 := Memref.whole cc2_scratch0

-- everything the region holds besides its arrays, with the accumulator's share left as the parameter `P`
def inv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = inv2 c iprop(∃ d, owns (c : Thread nD τ) scM2 fullShare d) := by
  unfold Pipeline.ΦA inv2; rw [scopedRest2_split]; simp only [scM2, owns_whole]; try rfl

-- before point n the accumulator holds what point n - 1 left, and anything before the first point
def PhiS2 (c : Dev nD) (n : ℕ) : sProp 𝕄 :=
  iprop(∃ d, ⌜∀ m h, n = m + 1 → d = accAt2 V c m h⌝ ∗ inv2 c (owns (c : Thread nD τ) scM2 fullShare d))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2_14 V c
  Φ t := PhiS2 V c t.val
  q _ := fullShare
  owed _ := 0

theorem A_eq2 (c : Dev nD) (w : Fin cfg2.W) : (dat2 V c).A w = V c (Pipeline.arrRef spec2 w) := rfl

theorem after2_14_last (c : Dev nD) : (dat2 V c).after 14 tLast2 = out2_14 V c := rfl

-- every window but the output is an input the body does not change, so before each point it reads as the array's block at that point
theorem before2 (c : Dev nD) (t : Fin cfg2.N) : ∀ (w : Fin cfg2.W) (hw : w ≠ 14) (d), (dat2 V c).before w t d = (dat2 V c).fetched w t d
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d | ⟨9, _⟩, _, d | ⟨10, _⟩, _, d | ⟨11, _⟩, _, d | ⟨12, _⟩, _, d | ⟨13, _⟩, _, d =>
    (dat2 V c).before_in_eq_fetched _ rfl (fun _ => rfl) (fun _ _ _ => rfl) (fun _ => rfl) t d
  | ⟨14, _⟩, hw, _ => absurd rfl hw

theorem leavesExact_live (c : Dev nD) (w : Fin cfg2.W) (t : Fin cfg2.N) (h : cfg2.idle w (cfg2.grid.coords t) = false) :
    (dat2 V c).leavesExact w t = owns (c : Thread nD τ) ((cfg2.win w).stage (cfg2.slots t w)) fullShare ((dat2 V c).after w t) := by
  unfold Dat.leavesExact; rw [h]

theorem leaves2 (c : Dev nD) (t : Fin cfg2.N) : ∀ (w : Fin cfg2.W) (hw : w ≠ 14),
    (dat2 V c).leavesExact w t = owns (c : Thread nD τ) ((cfg2.win w).stage (cfg2.slots t w)) fullShare ((dat2 V c).after w t)
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ | ⟨12, _⟩, _ | ⟨13, _⟩, _ => leavesExact_live V c _ t rfl
  | ⟨14, _⟩, hw => absurd rfl hw
-- one step of the accumulator's recursion, the reset taken at the first point only
theorem acc_step (c : Dev nD) (t : Fin cfg2.N) (xs : Vec F S128x64 .f32) (hxs : ∀ m h, t.val = m + 1 → xs = accAt2 V c m h) :
    accAt2 V c t.val t.isLt = k2_pay1 (pre2 V c t) (Scalar.ofBits .f32 0x00000000#32) (iblk2 V c 8 t) (if cond2_0 (grid2.coords t) then k2_pay3 (F := F) else xs) := by
  obtain ⟨n, hn⟩ := t
  cases n with
  | zero => rw [if_pos ((hcond2_0 _).mpr rfl)]; rfl
  | succ n => rw [if_neg fun h => Nat.succ_ne_zero n ((hcond2_0 _).mp h), hxs n _ rfl]; rfl

-- the output's contents: the head's value at the last point, unchanged elsewhere
theorem leaves2_14 (c : Dev nD) (t : Fin cfg2.N) (d) :
    owns (c : Thread nD τ) ((cfg2.win 14).stage (cfg2.slots t 14)) fullShare (if cond2_1 (grid2.coords t) then
      k2_pay2 (accAt2 V c t.val t.isLt) (iblk2 V c 9 t) (iblk2 V c 10 t) (iblk2 V c 11 t) (iblk2 V c 12 t) (iblk2 V c 13 t) else (dat2 V c).before 14 t d)
      ⊢ (dat2 V c).leavesExact 14 t := by
  by_cases h : cond2_1 (grid2.coords t)
  · obtain rfl : t = tLast2 := Fin.ext ((hcond2_1 t).mp h)
    rw [if_pos h, leavesExact_live V c 14 _ (liveAt2_14 _ h), after2_14_last]; exact .rfl
  · rw [if_neg h, Dat.leavesExact_idle _ 14 t (idleAt2_14 t h) (noFlush2_14 t h)]
    iintro H; iexists d; iexact H

theorem hz2 : (![0, 0] : Fin 2 → Nat) = fun _ => 0 := funext fun a => by fin_cases a <;> rfl

-- a store over the whole shape overwrites everything stored before it
theorem read_writes_whole_last {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero h inb y⟩),
    View.canon_cons_unit_zero h inb]

section
variable (c : Dev nD) (i : grid2.Coords) (a1 a2 : Memref sig .tc .vmem S2944x64 .f32) (a3 : Memref sig .tc .vmem S64x64 .f32) (a4 : Memref sig .tc .vmem S1x64 .f32) (a5 : Memref sig .tc .vmem S64x64 .f32) (a6 a7 a8 : Memref sig .tc .vmem S1x64 .f32) (a9 : Memref sig .tc .vmem S1x2944 .i32) (a10 : Memref sig .tc .vmem S128x1 .f32) (a11 : Memref sig .tc .vmem S64x32 .f32) (a12 : Memref sig .tc .vmem S1x32 .f32) (a13 : Memref sig .tc .vmem S32x1 .f32) (a14 : Memref sig .tc .vmem S1x1 .f32) (a15 : Memref sig .tc .vmem S128x1 .f32) (a16 : Memref sig .tc .vmem S128x64 .f32) (x1 x2 : Vec F S2944x64 .f32) (x3 : Vec F S64x64 .f32) (x4 : Vec F S1x64 .f32) (x5 : Vec F S64x64 .f32) (x6 x7 x8 : Vec F S1x64 .f32) (x9 : Vec F S1x2944 .i32) (x10 : Vec F S128x1 .f32) (x11 : Vec F S64x32 .f32) (x12 : Vec F S1x32 .f32) (x13 : Vec F S32x1 .f32) (x14 : Vec F S1x1 .f32)

def own2 (xo : Vec F S128x1 .f32) (xa : Vec F S128x64 .f32) : sProp 𝕄 :=
  iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare xo ∗ owns (c : Thread nD τ) a16 fullShare xa)

set_option maxHeartbeats 4000000 in
-- one run of the body: inputs unchanged; the accumulator, reset at the first point, gains the block's pooled rows; the output is set at the last point
theorem run2 {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {h13 : a13.IsWhole} {h14 : a14.IsWhole} {h15 : a15.IsWhole} {h16 : a16.IsWhole} (hne : cond2_0 i → ¬cond2_1 i) (xi : Vec F S128x1 .f32) (xs xa : Vec F S128x64 .f32)
    (ha : xa = k2_pay1 (k2_pay4 x1 x2 x3 x4 x5 x6 x7 x8) (Scalar.ofBits .f32 0x00000000#32) x9 (if cond2_0 i then k2_pay3 (F := F) else xs))
    (xo : Vec F S128x1 .f32) (ho : xo = if cond2_1 i then k2_pay2 xa x10 x11 x12 x13 x14 else xi) (E : Set ℕ) (K : PUnit → sProp 𝕄) :
    iprop(own2 c a1 a2 a3 a4 a5 a6 a7 a8 a9 a10 a11 a12 a13 a14 a15 a16 x1 x2 x3 x4 x5 x6 x7 x8 x9 x10 x11 x12 x13 x14 xi xs ∗ (own2 c a1 a2 a3 a4 a5 a6 a7 a8 a9 a10 a11 a12 a13 a14 a15 a16 x1 x2 x3 x4 x5 x6 x7 x8 x9 x10 x11 x12 x13 x14 xo xa -∗ K ⟨⟩))
      ⊢ wp frame (wpE (defs₀ (F := F)) Variants.none c none) E (cc2__gin_mlp_pool_kernel i a1 h1 a2 h2 a3 h3 a4 h4 a5 h5 a6 h6 a7 h7 a8 h8 a9 h9 a10 h10 a11 h11 a12 h12 a13 h13 a14 h14 a15 h15 a16 h16) K := by
  subst ho ha
  by_cases hc0 : cond2_0 i <;> by_cases hc1 : cond2_1 i
  · exact absurd hc1 (hne hc0)
  all_goals
    first | rw [if_pos hc0] | rw [if_neg hc0]
    first | rw [if_pos hc1] | rw [if_neg hc1]
    simp only [cc2__gin_mlp_pool_kernel_eq_skeleton]; unfold cc2__gin_mlp_pool_kernel_skel
    simp only [k2_part1_eq_skeleton]; unfold k2_part1_skel
    unfold own2 owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16
    sl_exec (disch := first | exact hc0 | exact hc1)
    sl_step
    iapply Hk
    isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap; isplitl [H14]; swap; isplitl [H15]; swap
    all_goals (iexists _; isplitr; swap; iassumption; ipureintro)
    all_goals try exact Memref.IsWhole.read_unread _ _
    all_goals
      sl_unfold_words
      rw [read_writes_whole_last _ _ hz2]
      dsimp only
      simp only [View.readAt_eq_ld, Memref.IsWhole.read_unread, View.readCov_unit_zero (S := S128x64) _ hz2, View.ld_unit_zero (S := S2944x64) hz2, View.ld_unit_zero (S := S64x64) hz2, View.ld_unit_zero (S := S1x64) hz2, View.ld_unit_zero (S := S1x2944) hz2, View.ld_unit_zero (S := S128x64) hz2, View.ld_unit_zero (S := S128x1) hz2, View.ld_unit_zero (S := S64x32) hz2, View.ld_unit_zero (S := S1x32) hz2, View.ld_unit_zero (S := S32x1) hz2, View.ld_unit_zero (S := S1x1) hz2]

end

def stIn2 (c : Dev nD) (t : Fin cfg2.N) (w : Fin cfg2.W) : sProp 𝕄 :=
  iprop(∃ d, owns (c : Thread nD τ) ((cfg2.win w).stage (cfg2.slots t w)) fullShare ((dat2 V c).before w t d))

set_option maxHeartbeats 8000000 in
-- the invariant supplies the accumulator's contents, one run of the body gives the next invariant
theorem sound_body2 (c : Dev nD) (t : Fin cfg2.N) :
    iprop((dat2 V c).Φ t.castSucc ∗ (dat2 V c).owesAt () t.castSucc ∗ stIn2 V c t 0 ∗ stIn2 V c t 1 ∗ stIn2 V c t 2 ∗ stIn2 V c t 3 ∗ stIn2 V c t 4 ∗ stIn2 V c t 5 ∗ stIn2 V c t 6 ∗ stIn2 V c t 7 ∗ stIn2 V c t 8 ∗ stIn2 V c t 9 ∗ stIn2 V c t 10 ∗ stIn2 V c t 11 ∗ stIn2 V c t 12 ∗ stIn2 V c t 13 ∗ stIn2 V c t 14)
      ⊢ wp frame (wpE (defs₀ (F := F)) Variants.none c none) Set.univ (bodyAt2 t) fun _ =>
        iprop((dat2 V c).Φ t.succ ∗ (dat2 V c).owesAt () t.succ ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t ∗ (dat2 V c).leavesExact 8 t ∗ (dat2 V c).leavesExact 9 t ∗ (dat2 V c).leavesExact 10 t ∗ (dat2 V c).leavesExact 11 t ∗ (dat2 V c).leavesExact 12 t ∗ (dat2 V c).leavesExact 13 t ∗ (dat2 V c).leavesExact 14 t) := by
  unfold stIn2 bodyAt2
  simp (disch := decide) only [before2 V c t]
  rw [show (dat2 V c).Φ t.castSucc = PhiS2 V c t.val from rfl, show (dat2 V c).Φ t.succ = PhiS2 V c (t.val + 1) from rfl]
  unfold PhiS2 inv2
  rw [leaves2 V c t 0 (by decide), leaves2 V c t 1 (by decide), leaves2 V c t 2 (by decide), leaves2 V c t 3 (by decide), leaves2 V c t 4 (by decide), leaves2 V c t 5 (by decide), leaves2 V c t 6 (by decide), leaves2 V c t 7 (by decide), leaves2 V c t 8 (by decide), leaves2 V c t 9 (by decide), leaves2 V c t 10 (by decide), leaves2 V c t 11 (by decide), leaves2 V c t 12 (by decide), leaves2 V c t 13 (by decide)]
  iintro ⟨⟨%xs, %hxs, ⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run2 c (grid2.coords t) (st2_0 t) (st2_1 t) (st2_2 t) (st2_3 t) (st2_4 t) (st2_5 t) (st2_6 t) (st2_7 t) (st2_8 t) (st2_9 t) (st2_10 t) (st2_11 t) (st2_12 t) (st2_13 t) (st2_14 t) scM2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    (fun h0 h1 => absurd (((hcond2_0 t).mp h0).symm.trans ((hcond2_1 t).mp h1)) (by decide)) ((dat2 V c).before 14 t d14) xs _ (acc_step V c t xs hxs) _ rfl Set.univ _)
  unfold own2
  isplitl [H0 H1 H2 H3 H4 H5 H6 H7 H8 H9 H10 H11 H12 H13 H14 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HS
  iintro ⟨H0, H1, H2, H3, H4, H5, H6, H7, H8, H9, H10, H11, H12, H13, H14, HS⟩
  isplitl [HS HR Hg]
  · iexists (accAt2 V c t.val t.isLt); isplitr
    · ipureintro; exact fun m h e => by cases e; rfl
    iframe
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (leaves2_14 V c t d14); iexact H14

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [PhiA2_eq, show (dat2 V c).Φ 0 = PhiS2 V c 0 from rfl]; unfold PhiS2 inv2
  iintro ⟨⟨⟨%d, HS⟩, HR⟩, Hg⟩; iexists d; isplitr
  · ipureintro; exact fun _ _ e => nomatch e
  iframe

theorem hout2 (c : Dev nD) : (dat2 V c).Φ (Fin.last cfg2.N) ⊢ (Pipeline.ΦA spec2 c : sProp 𝕄) := by
  rw [PhiA2_eq, show (dat2 V c).Φ (Fin.last cfg2.N) = PhiS2 V c cfg2.N from rfl]; unfold PhiS2 inv2
  iintro ⟨%d, -, ⟨HS, HR⟩, Hg⟩
  isplitl [HS HR]
  · isplitl [HS]
    · iexists d; iexact HS
    iexact HR
  iexact Hg

end Cert.Kernel.Hand

end
-- ==== Proof.KB.Fold.lean ====
import proofs.«413317_j72215580115596_2_alg».proof.Proof.KB.RegA0
import proofs.«413317_j72215580115596_2_alg».proof.Proof.KB.RegA1
import proofs.«413317_j72215580115596_2_alg».proof.Proof.KB.RegR2

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev V5 : (c : Dev nD) → (b : Ref sig .tc) → Buf (Elt F) ((c : Thread nD τ).loc b) := fun c b => W5 m c b
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N :=
  Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) :=
  Pipeline.withArrays_of_ne spec0 c _ _ b hb
abbrev V6 : (c : Dev nD) → (b : Ref sig .tc) → Buf (Elt F) ((c : Thread nD τ).loc b) := fun c b => W6 m c b
abbrev W7 : Dev nD → Valuation τ sig (Elt F) := fun c => StableHlo.after hostOps1 (W6 m c)
abbrev V7 : (c : Dev nD) → (b : Ref sig .tc) → Buf (Elt F) ((c : Thread nD τ).loc b) := fun c b => W7 m c b
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N :=
  Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) :=
  Pipeline.withArrays_of_ne spec1 c _ _ b hb
abbrev V8 : (c : Dev nD) → (b : Ref sig .tc) → Buf (Elt F) ((c : Thread nD τ).loc b) := fun c b => W8 m c b
abbrev W9 : Dev nD → Valuation τ sig (Elt F) := fun c => StableHlo.after hostOps2 (W8 m c)
abbrev V9 : (c : Dev nD) → (b : Ref sig .tc) → Buf (Elt F) ((c : Thread nD τ).loc b) := fun c b => W9 m c b
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N :=
  Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) :=
  Pipeline.withArrays_of_ne spec2 c _ _ b hb
abbrev V10 : (c : Dev nD) → (b : Ref sig .tc) → Buf (Elt F) ((c : Thread nD τ).loc b) := fun c b => W10 m c b
abbrev W11 : Dev nD → Valuation τ sig (Elt F) := fun c => StableHlo.after hostOps3 (W10 m c)

end Cert.Kernel.Hand

end
-- ==== Proof.KB.Run.lean ====
import proofs.«413317_j72215580115596_2_alg».proof.Proof.KB.Fold
import proofs.«413317_j72215580115596_2_alg».proof.Proof.Gen.Kernel.Regions

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no stretch writes and that no region holds as an output holds its launch contents at the end. -/
theorem W11_launch (c : Dev nD) (r : Ref sig .tc)
    (h : r ∉ hostOps0_W ∧ r ∉ hostOps0_1_W ∧ r ∉ hostOps0_2_W ∧ r ∉ hostOps0_3_W ∧ r ∉ hostOps0_4_W ∧ r ∉ hostOps1_W
      ∧ r ∉ hostOps2_W ∧ r ∉ hostOps3_W ∧ (∀ w, Pipeline.arrRef spec0 w ≠ r) ∧ (∀ w, Pipeline.arrRef spec1 w ≠ r)
      ∧ ∀ w, Pipeline.arrRef spec2 w = r → (cfg2.win w).isOut = false) :
    W11 m c (Proc.devRef .tc r) = m ((c : Thread nD τ).loc r) := by
  obtain ⟨h0, h1, h2, h3, h4, h5, h6, h7, a0, a1, a2⟩ := h
  have h9 : W9 m c (Proc.devRef .tc r) = m ((c : Thread nD τ).loc r) :=
    (StableHlo.after_of_writes_sub _ _ hostOps2_writes h6).trans <| (W8_of_ne m c r a1).trans <|
    (StableHlo.after_of_writes_sub _ _ hostOps1_writes h5).trans <| (W6_of_ne m c r a0).trans <|
    (StableHlo.after_of_writes_sub _ _ hostOps0_4_writes h4).trans <|
    (StableHlo.after_of_writes_sub _ _ hostOps0_3_writes h3).trans <|
    (StableHlo.after_of_writes_sub _ _ hostOps0_2_writes h2).trans <|
    (StableHlo.after_of_writes_sub _ _ hostOps0_1_writes h1).trans <|
    StableHlo.after_of_writes_sub _ _ hostOps0_writes h0
  refine (StableHlo.after_of_writes_sub _ _ hostOps3_writes h7).trans ?_
  by_cases hw : ∃ w, Pipeline.arrRef spec2 w = r
  · obtain ⟨w, rfl⟩ := hw
    exact (W10_arr m c w).trans <| ((dat2 (V9 m) c).arrAt_in w (a2 w rfl) _).trans <| (A_eq2 (V9 m) c w).trans h9
  · exact (W10_of_ne m c r fun w e => hw ⟨w, e⟩).trans h9

def pdats : (p : Fin 3) → (c : Dev nD) → Dat τ (Elt F) Unit ℕ (UR sig nD τ) ℕ (Pipeline.pin (pcfgs (F := F)) adm p) c
  | ⟨0, _⟩ => dat0 (V5 m)
  | ⟨1, _⟩ => dat1 (V7 m)
  | ⟨2, _⟩ => dat2 (V9 m)

abbrev pairs₀ : GSem nD τ sig → Finset Unit := fun _ => ∅
abbrev level₀ : GSem nD τ sig → Unit → ℕ := fun _ _ => 0

abbrev R (c : Dev nD) : sProp 𝕄 :=
  iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Shared

variable {c : Dev nD}

theorem owesAt_of_none {cfg : Cfg sig Λ₀} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩
  iexists W
  isplitr
  · ipureintro; exact fun _ _ => Or.inl trivial
  iexact HO

theorem none_of_owesAt {cfg : Cfg sig Λ₀} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

/-- Entry: a rearrangement of separating conjunctions around the split of the buffers into arrays and rest. -/
theorem entry_sort {H A Rest PH OA OS Lv : sProp 𝕄}
    (hsplit : H ⊢ iprop(A ∗ Rest)) (hPH : (BI.emp : sProp 𝕄) ⊢ PH)
    (hO : (iprop(∃ W, owes (c : Thread nD τ) (0 : CellTallies nD τ sig Unit) W) : sProp 𝕄) ⊢ OA) :
    iprop((H ∗ R c) ∗ OS ∗ Lv) ⊢ (|={Set.univ}=> iprop(A ∗ PH ∗ OA ∗ (∃ r, prngReg c r) ∗ Rest) : sProp 𝕄) := by
  iintro ⟨⟨Hh, Hp, HO⟩, -, -⟩
  ihave Hs := hsplit $$ Hh
  icases Hs with ⟨Ha, Hrest⟩
  imodintro
  isplitl [Ha]; · iexact Ha
  isplitr
  · iapply hPH; iempintro
  isplitl [HO]
  · iapply hO; iexact HO
  isplitl [Hp]; · iexact Hp
  iexact Hrest

/-- Exit: the converse rearrangement around the join of arrays and rest. -/
theorem exit_join {A Rest OA H' : sProp 𝕄}
    (hjoin : iprop(A ∗ Rest) ⊢ H')
    (hO : OA ⊢ (iprop(∃ W, owes (c : Thread nD τ) (0 : CellTallies nD τ sig Unit) W) : sProp 𝕄)) :
    iprop(A ∗ OA ∗ (∃ r, prngReg c r) ∗ Rest) ⊢ (|={Set.univ}=> iprop(H' ∗ R c) : sProp 𝕄) := by
  iintro ⟨Ha, HO, HY, Hrest⟩
  imodintro
  isplitl [Ha Hrest]
  · iapply hjoin; isplitl [Ha] <;> iassumption
  isplitl [HY]; · iexact HY
  iapply hO; iexact HO

theorem ΦA_in {gr W : Nat} (win : Fin W → Pipeline.WinSpec sig gr) (c : Dev nD) (PH : sProp 𝕄) :
    iprop((∃ r, prngReg c r) ∗ PH ∗ Pipeline.scopedRest win c) ⊢ (Pipeline.ΦA win c : sProp 𝕄) := by
  unfold Pipeline.ΦA
  iintro ⟨Hp, -, Hr⟩
  isplitl [Hr]; · iexact Hr
  iexact Hp

theorem ΦA_out {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

end Shared

set_option backward.isDefEq.respectTransparency.types false in
/-- Region `p` as a segment from the contents `Wi` to `Wo`, which agree off the region's arrays. -/
def reg (p : Fin 3) (la : Pipeline.LaunchFacts (nD := nD) (τ := τ) cfgs p) (Wi Wo : Dev nD → Valuation τ sig (Elt F))
    (hb : ∀ c, BodyObligation (pdats m p c) (defs₀ (F := F)) Variants.none () Set.univ)
    (howed : ∀ c t, (pdats m p c).owed t = 0) (hrec : ∀ c, (pdats m p c).recorded 0 = Set.univ)
    (hq : ∀ c w, (pdats m p c).q w = fullShare)
    (hA : ∀ c w, (pdats m p c).A w = Wi c (Pipeline.arrRef (cfgs p).spec w))
    (harr : ∀ c w, Wo c (Proc.devRef .tc (Pipeline.arrRef (cfgs p).spec w)) = (pdats m p c).arrAt w (cfgs p).N)
    (hne : ∀ c b, (∀ w, Pipeline.arrRef (cfgs p).spec w ≠ b) → Wo c (Proc.devRef .tc b) = Wi c (Proc.devRef .tc b))
    (hi : ∀ c, (Pipeline.ΦA (cfgs p).spec c : sProp 𝕄) ⊢ (pdats m p c).Φ 0)
    (ho : ∀ c, (pdats m p c).Φ (Fin.last (cfgs p).N) ⊢ (Pipeline.ΦA (cfgs p).spec c : sProp 𝕄)) :
    Pipeline.RegionSeg (pcfgs (F := F)) adm (pdats m) () defs₀ Variants.none pairs₀ level₀ p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ pairs₀ level₀ p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    have hsplit := Pipeline.arrays_of_unscopedBufs (p := p) (pcfgs (F := F)) adm (pdats m) la.win la.arr_whole c
      ((pdats m p c).share_full (hq c)) (fun b => Wi c b) (hA c)
    rw [Pipeline.unscopedBufs_held] at hsplit
    refine entry_sort hsplit ?_ (owesAt_of_none (pdats m p c) 0 (howed c 0) (hrec c))
    unfold Pipeline.prefHeld; rw [show (Finset.univ : Finset (Fin 0)) = ∅ from rfl, BI.bigSep_empty]
  hin c := (ΦA_in (cfgs p).spec c _).trans (hi c)
  hout c := by rw [Pipeline.ownSems0_none]; exact (ho c).trans (ΦA_out (cfgs p).spec c)
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c))
      (fun b => Wi c b) (fun b => Wo c b) ((pdats m p c).arrAt · (cfgs p).N) (fun w => (harr c w).symm)
      (fun b hb => hne c b fun w e => hb (Finset.mem_image.mpr ⟨w, Finset.mem_univ _, e⟩))
    rw [Pipeline.unscopedBufs_held] at hjoin
    exact exit_join hjoin (none_of_owesAt (pdats m p c) _ (howed c _))

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none pairs₀ level₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev runSegs : List (Pipeline.Seg (pcfgs (F := F)) adm (pdats m) () defs₀ Variants.none pairs₀ level₀) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg m 0 launch0 (W5 m) (W6 m) (body_obligation0 (V5 m)) (fun _ _ => rfl) (fun _ => rfl) (fun _ _ => rfl)
      (fun _ _ => rfl) (W6_arr m) (W6_of_ne m) (fun _ => .rfl) fun _ => .rfl),
    .host (hseg hostOps1 hostOps1_sub hostOps1_fresh (W6 m)),
    .region (reg m 1 launch1 (W7 m) (W8 m) (body_obligation1 (V7 m)) (fun _ _ => rfl) (fun _ => rfl) (fun _ _ => rfl)
      (fun _ _ => rfl) (W8_arr m) (W8_of_ne m) (fun _ => .rfl) fun _ => .rfl),
    .host (hseg hostOps2 hostOps2_sub hostOps2_fresh (W8 m)),
    .region (reg m 2 launch2 (W9 m) (W10 m) (body_obligation2 (V9 m)) (fun _ _ => rfl) (fun _ => rfl) (fun _ _ => rfl)
      (fun _ _ => rfl) (W10_arr m) (W10_of_ne m) (hin2 (V9 m)) (hout2 (V9 m))),
    .host (hseg hostOps3 hostOps3_sub hostOps3_fresh (W10 m)) ]

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ Variants.none pairs₀ level₀ m ρ main (runSegs m)
    (fun c Q => by
      rewrite [main_chain c, Pipeline.Seg.run_eq_chain]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      refine .trans ?_ fupd_intro
      exact sep_emp_intro.trans (sep_mono .rfl (Entails.of_eq (BI.bigSep_emp_const _).symm)))
    (T₀ := fun c => iprop(StableHlo.held (c : Thread nD τ) (Pipeline.ucRefs τ sig) (W0 m c) ∗ R c)) (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach pairs₀ level₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- The run, read at the result and at the thirteen arguments. -/
theorem run_val : θ_run defs (onTc (τ := τ) (main (F := F))) ⟨m, fun _ => 0, ρ⟩ (fun r => ∀ c : Dev nD,
      r.2.mem ((c.tc : Thread nD τ).loc main_v101) = W11 m c main_v101
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    have k (b : Ref sig .tc) (u) (e) : r.2.mem ((c.tc : Thread nD τ).loc b) = m ((c.tc : Thread nD τ).loc b) :=
      (h c _ (mem_uc b u)).trans (W11_launch m c b e)
    refine ⟨h c _ (mem_uc main_v101 (by decide)), ?_⟩
    and_intros <;> exact k _ (by decide) (by decide)) (run_all m ρ)

end Cert.Kernel.Hand

end
-- ==== Proof.KI.RegA0.lean ====
import proofs.«413317_j72215580115596_2_alg».proof.Proof.Gen.KernelIdeal.Launch
import proofs.«413317_j72215580115596_2_alg».proof.Proof.Gen.KernelIdeal.Skeleton
import proofs.«413317_j72215580115596_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0_big : Rect S5888x64 := Rect.unit (s := S5888x64) ![0, 0] S5888x64.size inb_S5888x64_S5888x64_0_0
abbrev rA0_w : Rect S64x64 := Rect.unit (s := S64x64) ![0, 0] S64x64.size inb_S64x64_S64x64_0_0
abbrev rA0_v : Rect S1x64 := Rect.unit (s := S1x64) ![0, 0] S1x64.size inb_S1x64_S1x64_0_0

def out0_8 (x0 x1 : Vec F S5888x64 .f32) (x2 : Vec F S64x64 .f32) (x3 : Vec F S1x64 .f32) (x4 : Vec F S64x64 .f32)
    (x5 x6 x7 : Vec F S1x64 .f32) : Vec F S5888x64 .f32 :=
  View.canon [⟨rA0_big, k0_pay1 (View.ld x0 rA0_big) (View.ld x1 rA0_big) (View.ld x2 rA0_w) (View.ld x3 rA0_v)
    (View.ld x4 rA0_w) (View.ld x5 rA0_v) (View.ld x6 rA0_v) (View.ld x7 rA0_v)⟩]

set_option maxHeartbeats 1000000 in
-- One store covers the whole block, so afterwards the output reads as that store's value.
theorem sound_kernel0 (c : Dev nD) (E : Set ℕ) (i : grid0.Coords) (arg1 arg2 arg9 : Memref sig .tc .vmem S5888x64 .f32)
    (arg3 arg5 : Memref sig .tc .vmem S64x64 .f32) (arg4 arg6 arg7 arg8 : Memref sig .tc .vmem S1x64 .f32)
    (harg1 : arg1.IsWhole) (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole)
    (x0 x1 : Vec F S5888x64 .f32) (x2 : Vec F S64x64 .f32) (x3 : Vec F S1x64 .f32) (x4 : Vec F S64x64 .f32) (x5 x6 x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9) K := by
  simp only [cc0__gin_mlp_kernel_eq_skeleton]; unfold cc0__gin_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S5888x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t)
        (iblk0 V c 5 t) (iblk0 V c 6 t) (iblk0 V c 7 t)
  Φ _ := Pipeline.ΦA spec0 c
  q _ := fullShare
  owed _ := 0

theorem after0_8 (c : Dev nD) (t : Fin cfg0.N) : (dat0 V c).after 8 t
    = out0_8 (iblk0 V c 0 t) (iblk0 V c 1 t) (iblk0 V c 2 t) (iblk0 V c 3 t) (iblk0 V c 4 t)
        (iblk0 V c 5 t) (iblk0 V c 6 t) (iblk0 V c 7 t) := by dsimp only [dat0]

-- The body changes no input, and points with equal block index read equal blocks: before every point an input reads as that point's block.
theorem before0 (c : Dev nD) (t : Fin cfg0.N) :
    (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t)
    ∧ (∀ d, (dat0 V c).before 4 t d = iblk0 V c 4 t) ∧ (∀ d, (dat0 V c).before 5 t d = iblk0 V c 5 t)
    ∧ (∀ d, (dat0 V c).before 6 t d = iblk0 V c 6 t) ∧ (∀ d, (dat0 V c).before 7 t d = iblk0 V c 7 t) := by
  refine ⟨fun d => ?_, fun d => ?_, fun d => ?_, fun d => ?_, fun d => ?_, fun d => ?_, fun d => ?_, fun d => ?_⟩ <;>
    refine ((dat0 V c).before_in_eq_fetched _ rfl (fun _ => rfl) (fun _ _ _ => rfl) (fun t => ?_) t d).trans ?_ <;>
    (try unfold Dat.fetched) <;> unfold Dat.blockOf <;> dsimp only [dat0, iblk0] <;> rfl

-- With the inputs at their blocks the body's triple applies as it stands; the invariant and the obligations carry through unchanged.
theorem sound_body0 (c : Dev nD) (t : Fin cfg0.N) :
    iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))
    ⊢ wp frame (wpE (defs₀ (F := F)) Variants.none c none) Set.univ (bodyAt0 t) (fun _ => iprop((dat0 V c).Φ t.castSucc ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare (iblk0 V c 5 t)
    ∗ owns (c : Thread nD τ) (st0_6 t) fullShare (iblk0 V c 6 t)
    ∗ owns (c : Thread nD τ) (st0_7 t) fullShare (iblk0 V c 7 t)
    ∗ owns (c : Thread nD τ) (st0_8 t) fullShare ((dat0 V c).after 8 t))) := by
  obtain ⟨h0, h1, h2, h3, h4, h5, h6, h7⟩ := before0 V c t
  simp only [h0, h1, h2, h3, h4, h5, h6, h7]
  rw [after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.RegA1.lean ====
import proofs.«413317_j72215580115596_2_alg».proof.Proof.Gen.KernelIdeal.Launch
import proofs.«413317_j72215580115596_2_alg».proof.Proof.Gen.KernelIdeal.Skeleton
import proofs.«413317_j72215580115596_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1_big : Rect S5888x64 := Rect.unit (s := S5888x64) ![0, 0] S5888x64.size inb_S5888x64_S5888x64_0_0
abbrev rA1_w : Rect S64x64 := Rect.unit (s := S64x64) ![0, 0] S64x64.size inb_S64x64_S64x64_0_0
abbrev rA1_v : Rect S1x64 := Rect.unit (s := S1x64) ![0, 0] S1x64.size inb_S1x64_S1x64_0_0

def out1_8 (x0 x1 : Vec F S5888x64 .f32) (x2 : Vec F S64x64 .f32) (x3 : Vec F S1x64 .f32) (x4 : Vec F S64x64 .f32)
    (x5 x6 x7 : Vec F S1x64 .f32) : Vec F S5888x64 .f32 :=
  View.canon [⟨rA1_big, k1_pay1 (View.ld x0 rA1_big) (View.ld x1 rA1_big) (View.ld x2 rA1_w) (View.ld x3 rA1_v)
    (View.ld x4 rA1_w) (View.ld x5 rA1_v) (View.ld x6 rA1_v) (View.ld x7 rA1_v)⟩]

set_option maxHeartbeats 1000000 in
-- One store covers the whole block, so afterwards the output reads as that store's value.
theorem sound_kernel1 (c : Dev nD) (E : Set ℕ) (i : grid1.Coords) (arg1 arg2 arg9 : Memref sig .tc .vmem S5888x64 .f32)
    (arg3 arg5 : Memref sig .tc .vmem S64x64 .f32) (arg4 arg6 arg7 arg8 : Memref sig .tc .vmem S1x64 .f32)
    (harg1 : arg1.IsWhole) (harg2 : arg2.IsWhole) (harg3 : arg3.IsWhole) (harg4 : arg4.IsWhole) (harg5 : arg5.IsWhole)
    (harg6 : arg6.IsWhole) (harg7 : arg7.IsWhole) (harg8 : arg8.IsWhole) (harg9 : arg9.IsWhole)
    (x0 x1 : Vec F S5888x64 .f32) (x2 : Vec F S64x64 .f32) (x3 : Vec F S1x64 .f32) (x4 : Vec F S64x64 .f32) (x5 x6 x7 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9) K := by
  simp only [cc1__gin_mlp_kernel_eq_skeleton]; unfold cc1__gin_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  iexists _; isplitr
  swap; · iexact H8
  ipureintro
  exact View.read_writes_eq_canon _ _ _ (View.cover_of_tiled _ S5888x64.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t)
        (iblk1 V c 5 t) (iblk1 V c 6 t) (iblk1 V c 7 t)
  Φ _ := Pipeline.ΦA spec1 c
  q _ := fullShare
  owed _ := 0

theorem after1_8 (c : Dev nD) (t : Fin cfg1.N) : (dat1 V c).after 8 t
    = out1_8 (iblk1 V c 0 t) (iblk1 V c 1 t) (iblk1 V c 2 t) (iblk1 V c 3 t) (iblk1 V c 4 t)
        (iblk1 V c 5 t) (iblk1 V c 6 t) (iblk1 V c 7 t) := by dsimp only [dat1]

-- The body changes no input, and points with equal block index read equal blocks: before every point an input reads as that point's block.
theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t)
    ∧ (∀ d, (dat1 V c).before 6 t d = iblk1 V c 6 t) ∧ (∀ d, (dat1 V c).before 7 t d = iblk1 V c 7 t) := by
  refine ⟨fun d => ?_, fun d => ?_, fun d => ?_, fun d => ?_, fun d => ?_, fun d => ?_, fun d => ?_, fun d => ?_⟩ <;>
    refine ((dat1 V c).before_in_eq_fetched _ rfl (fun _ => rfl) (fun _ _ _ => rfl) (fun t => ?_) t d).trans ?_ <;>
    (try unfold Dat.fetched) <;> unfold Dat.blockOf <;> dsimp only [dat1, iblk1] <;> rfl

-- With the inputs at their blocks the body's triple applies as it stands; the invariant and the obligations carry through unchanged.
theorem sound_body1 (c : Dev nD) (t : Fin cfg1.N) :
    iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))
    ⊢ wp frame (wpE (defs₀ (F := F)) Variants.none c none) Set.univ (bodyAt1 t) (fun _ => iprop((dat1 V c).Φ t.castSucc ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare (iblk1 V c 6 t)
    ∗ owns (c : Thread nD τ) (st1_7 t) fullShare (iblk1 V c 7 t)
    ∗ owns (c : Thread nD τ) (st1_8 t) fullShare ((dat1 V c).after 8 t))) := by
  obtain ⟨h0, h1, h2, h3, h4, h5, h6, h7⟩ := before1 V c t
  simp only [h0, h1, h2, h3, h4, h5, h6, h7]
  rw [after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.RegR2.lean ====
import proofs.«413317_j72215580115596_2_alg».proof.Proof.Gen.KernelIdeal.Launch
import proofs.«413317_j72215580115596_2_alg».proof.Proof.Gen.KernelIdeal.Skeleton
import proofs.«413317_j72215580115596_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem N2_last : 33 < cfg2.N := by rw [show cfg2.N = 34 from N_2]; decide
abbrev tLast2 : Fin cfg2.N := ⟨33, N2_last⟩

def pre2 (c : Dev nD) (t : Fin cfg2.N) : FVec F S2944x64 .f32 :=
  k2_pay4 (iblk2 V c 0 t) (iblk2 V c 1 t) (iblk2 V c 2 t) (iblk2 V c 3 t) (iblk2 V c 4 t) (iblk2 V c 5 t) (iblk2 V c 6 t) (iblk2 V c 7 t)

def accAt2 (c : Dev nD) : (n : ℕ) → n < cfg2.N → Vec F S128x64 .f32
  | 0, hn => k2_pay1 (pre2 V c ⟨0, hn⟩) (Scalar.ofBits .f32 0x00000000#32) (iblk2 V c 8 ⟨0, hn⟩) (k2_pay3 (F := F))
  | n + 1, hn => k2_pay1 (pre2 V c ⟨n + 1, hn⟩) (Scalar.ofBits .f32 0x00000000#32) (iblk2 V c 8 ⟨n + 1, hn⟩)
      (accAt2 c n (Nat.lt_of_succ_lt hn))

theorem accAt2_zero (c : Dev nD) (hn : 0 < cfg2.N) :
    accAt2 V c 0 hn = k2_pay1 (pre2 V c ⟨0, hn⟩) (Scalar.ofBits .f32 0x00000000#32) (iblk2 V c 8 ⟨0, hn⟩) (k2_pay3 (F := F)) := rfl
theorem accAt2_succ (c : Dev nD) (n : ℕ) (hn : n + 1 < cfg2.N) :
    accAt2 V c (n + 1) hn = k2_pay1 (pre2 V c ⟨n + 1, hn⟩) (Scalar.ofBits .f32 0x00000000#32) (iblk2 V c 8 ⟨n + 1, hn⟩)
      (accAt2 V c n (Nat.lt_of_succ_lt hn)) := rfl

def out2_14 (c : Dev nD) : Vec F S128x1 .f32 :=
  k2_pay2 (accAt2 V c 33 N2_last) (iblk2 V c 9 tLast2) (iblk2 V c 10 tLast2) (iblk2 V c 11 tLast2) (iblk2 V c 12 tLast2) (iblk2 V c 13 tLast2)

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
abbrev cond2_1 (i : grid2.Coords) : Prop := k2_cond2 i = 1#1
theorem hcond2_1 : ∀ t : Fin cfg2.N, cond2_1 (grid2.coords t) ↔ t.val = 33 :=
  (by decide +kernel : ∀ t : Fin grid2.N, cond2_1 (grid2.coords t) ↔ t.val = 33)

theorem idleAt2_14 : ∀ t : Fin cfg2.N, ¬cond2_1 (grid2.coords t) → cfg2.idle 14 (grid2.coords t) = true := by decide +kernel
theorem noFlush2_14 : ∀ t : Fin cfg2.N, ¬cond2_1 (grid2.coords t) → (cfg2.win 14).flush t = false := by decide +kernel
theorem liveAt2_14 : ∀ t : Fin cfg2.N, cond2_1 (grid2.coords t) → cfg2.idle 14 (grid2.coords t) = false := by decide +kernel

abbrev scM2 : Memref sig .tc .vmem S128x64 .f32 := Memref.whole cc2_scratch0

-- everything the region holds besides its arrays, with the accumulator's share left as the parameter `P`
def inv2 (c : Dev nD) (P : sProp 𝕄) : sProp 𝕄 :=
  iprop(iprop(P ∗ Pipeline.scopedRestBut (Ix := Unit) (Name := ℕ) (U := UR sig nD τ) (Lvl := ℕ) (Val := Elt F) spec2 c [cc2_scratch0]) ∗ (∃ r, prngReg c r))

theorem PhiA2_eq (c : Dev nD) : (Pipeline.ΦA spec2 c : sProp 𝕄) = inv2 c iprop(∃ d, owns (c : Thread nD τ) scM2 fullShare d) := by
  unfold Pipeline.ΦA inv2; rw [scopedRest2_split]; simp only [scM2, owns_whole]; try rfl

-- before point n the accumulator holds what point n - 1 left, and anything before the first point
def PhiS2 (c : Dev nD) (n : ℕ) : sProp 𝕄 :=
  iprop(∃ d, ⌜∀ m h, n = m + 1 → d = accAt2 V c m h⌝ ∗ inv2 c (owns (c : Thread nD τ) scM2 fullShare d))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => out2_14 V c
  Φ t := PhiS2 V c t.val
  q _ := fullShare
  owed _ := 0

theorem A_eq2 (c : Dev nD) (w : Fin cfg2.W) : (dat2 V c).A w = V c (Pipeline.arrRef spec2 w) := rfl

theorem after2_14_last (c : Dev nD) : (dat2 V c).after 14 tLast2 = out2_14 V c := rfl

-- every window but the output is an input the body does not change, so before each point it reads as the array's block at that point
theorem before2 (c : Dev nD) (t : Fin cfg2.N) : ∀ (w : Fin cfg2.W) (hw : w ≠ 14) (d), (dat2 V c).before w t d = (dat2 V c).fetched w t d
  | ⟨0, _⟩, _, d | ⟨1, _⟩, _, d | ⟨2, _⟩, _, d | ⟨3, _⟩, _, d | ⟨4, _⟩, _, d | ⟨5, _⟩, _, d | ⟨6, _⟩, _, d | ⟨7, _⟩, _, d | ⟨8, _⟩, _, d | ⟨9, _⟩, _, d | ⟨10, _⟩, _, d | ⟨11, _⟩, _, d | ⟨12, _⟩, _, d | ⟨13, _⟩, _, d =>
    (dat2 V c).before_in_eq_fetched _ rfl (fun _ => rfl) (fun _ _ _ => rfl) (fun _ => rfl) t d
  | ⟨14, _⟩, hw, _ => absurd rfl hw

theorem leavesExact_live (c : Dev nD) (w : Fin cfg2.W) (t : Fin cfg2.N) (h : cfg2.idle w (cfg2.grid.coords t) = false) :
    (dat2 V c).leavesExact w t = owns (c : Thread nD τ) ((cfg2.win w).stage (cfg2.slots t w)) fullShare ((dat2 V c).after w t) := by
  unfold Dat.leavesExact; rw [h]

theorem leaves2 (c : Dev nD) (t : Fin cfg2.N) : ∀ (w : Fin cfg2.W) (hw : w ≠ 14),
    (dat2 V c).leavesExact w t = owns (c : Thread nD τ) ((cfg2.win w).stage (cfg2.slots t w)) fullShare ((dat2 V c).after w t)
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ | ⟨11, _⟩, _ | ⟨12, _⟩, _ | ⟨13, _⟩, _ => leavesExact_live V c _ t rfl
  | ⟨14, _⟩, hw => absurd rfl hw
-- one step of the accumulator's recursion, the reset taken at the first point only
theorem acc_step (c : Dev nD) (t : Fin cfg2.N) (xs : Vec F S128x64 .f32) (hxs : ∀ m h, t.val = m + 1 → xs = accAt2 V c m h) :
    accAt2 V c t.val t.isLt = k2_pay1 (pre2 V c t) (Scalar.ofBits .f32 0x00000000#32) (iblk2 V c 8 t) (if cond2_0 (grid2.coords t) then k2_pay3 (F := F) else xs) := by
  obtain ⟨n, hn⟩ := t
  cases n with
  | zero => rw [if_pos ((hcond2_0 _).mpr rfl)]; rfl
  | succ n => rw [if_neg fun h => Nat.succ_ne_zero n ((hcond2_0 _).mp h), hxs n _ rfl]; rfl

-- the output's contents: the head's value at the last point, unchanged elsewhere
theorem leaves2_14 (c : Dev nD) (t : Fin cfg2.N) (d) :
    owns (c : Thread nD τ) ((cfg2.win 14).stage (cfg2.slots t 14)) fullShare (if cond2_1 (grid2.coords t) then
      k2_pay2 (accAt2 V c t.val t.isLt) (iblk2 V c 9 t) (iblk2 V c 10 t) (iblk2 V c 11 t) (iblk2 V c 12 t) (iblk2 V c 13 t) else (dat2 V c).before 14 t d)
      ⊢ (dat2 V c).leavesExact 14 t := by
  by_cases h : cond2_1 (grid2.coords t)
  · obtain rfl : t = tLast2 := Fin.ext ((hcond2_1 t).mp h)
    rw [if_pos h, leavesExact_live V c 14 _ (liveAt2_14 _ h), after2_14_last]; exact .rfl
  · rw [if_neg h, Dat.leavesExact_idle _ 14 t (idleAt2_14 t h) (noFlush2_14 t h)]
    iintro H; iexists d; iexact H

theorem hz2 : (![0, 0] : Fin 2 → Nat) = fun _ => 0 := funext fun a => by fin_cases a <;> rfl

-- a store over the whole shape overwrites everything stored before it
theorem read_writes_whole_last {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons.mpr (Or.inl rfl), View.mem_set_unit_zero h inb y⟩),
    View.canon_cons_unit_zero h inb]

section
variable (c : Dev nD) (i : grid2.Coords) (a1 a2 : Memref sig .tc .vmem S2944x64 .f32) (a3 : Memref sig .tc .vmem S64x64 .f32) (a4 : Memref sig .tc .vmem S1x64 .f32) (a5 : Memref sig .tc .vmem S64x64 .f32) (a6 a7 a8 : Memref sig .tc .vmem S1x64 .f32) (a9 : Memref sig .tc .vmem S1x2944 .i32) (a10 : Memref sig .tc .vmem S128x1 .f32) (a11 : Memref sig .tc .vmem S64x32 .f32) (a12 : Memref sig .tc .vmem S1x32 .f32) (a13 : Memref sig .tc .vmem S32x1 .f32) (a14 : Memref sig .tc .vmem S1x1 .f32) (a15 : Memref sig .tc .vmem S128x1 .f32) (a16 : Memref sig .tc .vmem S128x64 .f32) (x1 x2 : Vec F S2944x64 .f32) (x3 : Vec F S64x64 .f32) (x4 : Vec F S1x64 .f32) (x5 : Vec F S64x64 .f32) (x6 x7 x8 : Vec F S1x64 .f32) (x9 : Vec F S1x2944 .i32) (x10 : Vec F S128x1 .f32) (x11 : Vec F S64x32 .f32) (x12 : Vec F S1x32 .f32) (x13 : Vec F S32x1 .f32) (x14 : Vec F S1x1 .f32)

def own2 (xo : Vec F S128x1 .f32) (xa : Vec F S128x64 .f32) : sProp 𝕄 :=
  iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare xo ∗ owns (c : Thread nD τ) a16 fullShare xa)

set_option maxHeartbeats 4000000 in
-- one run of the body: inputs unchanged; the accumulator, reset at the first point, gains the block's pooled rows; the output is set at the last point
theorem run2 {h1 : a1.IsWhole} {h2 : a2.IsWhole} {h3 : a3.IsWhole} {h4 : a4.IsWhole} {h5 : a5.IsWhole} {h6 : a6.IsWhole} {h7 : a7.IsWhole} {h8 : a8.IsWhole} {h9 : a9.IsWhole} {h10 : a10.IsWhole} {h11 : a11.IsWhole} {h12 : a12.IsWhole} {h13 : a13.IsWhole} {h14 : a14.IsWhole} {h15 : a15.IsWhole} {h16 : a16.IsWhole} (hne : cond2_0 i → ¬cond2_1 i) (xi : Vec F S128x1 .f32) (xs xa : Vec F S128x64 .f32)
    (ha : xa = k2_pay1 (k2_pay4 x1 x2 x3 x4 x5 x6 x7 x8) (Scalar.ofBits .f32 0x00000000#32) x9 (if cond2_0 i then k2_pay3 (F := F) else xs))
    (xo : Vec F S128x1 .f32) (ho : xo = if cond2_1 i then k2_pay2 xa x10 x11 x12 x13 x14 else xi) (E : Set ℕ) (K : PUnit → sProp 𝕄) :
    iprop(own2 c a1 a2 a3 a4 a5 a6 a7 a8 a9 a10 a11 a12 a13 a14 a15 a16 x1 x2 x3 x4 x5 x6 x7 x8 x9 x10 x11 x12 x13 x14 xi xs ∗ (own2 c a1 a2 a3 a4 a5 a6 a7 a8 a9 a10 a11 a12 a13 a14 a15 a16 x1 x2 x3 x4 x5 x6 x7 x8 x9 x10 x11 x12 x13 x14 xo xa -∗ K ⟨⟩))
      ⊢ wp frame (wpE (defs₀ (F := F)) Variants.none c none) E (cc2__gin_mlp_pool_kernel i a1 h1 a2 h2 a3 h3 a4 h4 a5 h5 a6 h6 a7 h7 a8 h8 a9 h9 a10 h10 a11 h11 a12 h12 a13 h13 a14 h14 a15 h15 a16 h16) K := by
  subst ho ha
  by_cases hc0 : cond2_0 i <;> by_cases hc1 : cond2_1 i
  · exact absurd hc1 (hne hc0)
  all_goals
    first | rw [if_pos hc0] | rw [if_neg hc0]
    first | rw [if_pos hc1] | rw [if_neg hc1]
    simp only [cc2__gin_mlp_pool_kernel_eq_skeleton]; unfold cc2__gin_mlp_pool_kernel_skel
    simp only [k2_part1_eq_skeleton]; unfold k2_part1_skel
    unfold own2 owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16
    sl_exec (disch := first | exact hc0 | exact hc1)
    sl_step
    iapply Hk
    isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [H12]; swap; isplitl [H13]; swap; isplitl [H14]; swap; isplitl [H15]; swap
    all_goals (iexists _; isplitr; swap; iassumption; ipureintro)
    all_goals try exact Memref.IsWhole.read_unread _ _
    all_goals
      sl_unfold_words
      rw [read_writes_whole_last _ _ hz2]
      dsimp only
      simp only [View.readAt_eq_ld, Memref.IsWhole.read_unread, View.readCov_unit_zero (S := S128x64) _ hz2, View.ld_unit_zero (S := S2944x64) hz2, View.ld_unit_zero (S := S64x64) hz2, View.ld_unit_zero (S := S1x64) hz2, View.ld_unit_zero (S := S1x2944) hz2, View.ld_unit_zero (S := S128x64) hz2, View.ld_unit_zero (S := S128x1) hz2, View.ld_unit_zero (S := S64x32) hz2, View.ld_unit_zero (S := S1x32) hz2, View.ld_unit_zero (S := S32x1) hz2, View.ld_unit_zero (S := S1x1) hz2]

end

def stIn2 (c : Dev nD) (t : Fin cfg2.N) (w : Fin cfg2.W) : sProp 𝕄 :=
  iprop(∃ d, owns (c : Thread nD τ) ((cfg2.win w).stage (cfg2.slots t w)) fullShare ((dat2 V c).before w t d))

set_option maxHeartbeats 8000000 in
-- the invariant supplies the accumulator's contents, one run of the body gives the next invariant
theorem sound_body2 (c : Dev nD) (t : Fin cfg2.N) :
    iprop((dat2 V c).Φ t.castSucc ∗ (dat2 V c).owesAt () t.castSucc ∗ stIn2 V c t 0 ∗ stIn2 V c t 1 ∗ stIn2 V c t 2 ∗ stIn2 V c t 3 ∗ stIn2 V c t 4 ∗ stIn2 V c t 5 ∗ stIn2 V c t 6 ∗ stIn2 V c t 7 ∗ stIn2 V c t 8 ∗ stIn2 V c t 9 ∗ stIn2 V c t 10 ∗ stIn2 V c t 11 ∗ stIn2 V c t 12 ∗ stIn2 V c t 13 ∗ stIn2 V c t 14)
      ⊢ wp frame (wpE (defs₀ (F := F)) Variants.none c none) Set.univ (bodyAt2 t) fun _ =>
        iprop((dat2 V c).Φ t.succ ∗ (dat2 V c).owesAt () t.succ ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t ∗ (dat2 V c).leavesExact 8 t ∗ (dat2 V c).leavesExact 9 t ∗ (dat2 V c).leavesExact 10 t ∗ (dat2 V c).leavesExact 11 t ∗ (dat2 V c).leavesExact 12 t ∗ (dat2 V c).leavesExact 13 t ∗ (dat2 V c).leavesExact 14 t) := by
  unfold stIn2 bodyAt2
  simp (disch := decide) only [before2 V c t]
  rw [show (dat2 V c).Φ t.castSucc = PhiS2 V c t.val from rfl, show (dat2 V c).Φ t.succ = PhiS2 V c (t.val + 1) from rfl]
  unfold PhiS2 inv2
  rw [leaves2 V c t 0 (by decide), leaves2 V c t 1 (by decide), leaves2 V c t 2 (by decide), leaves2 V c t 3 (by decide), leaves2 V c t 4 (by decide), leaves2 V c t 5 (by decide), leaves2 V c t 6 (by decide), leaves2 V c t 7 (by decide), leaves2 V c t 8 (by decide), leaves2 V c t 9 (by decide), leaves2 V c t 10 (by decide), leaves2 V c t 11 (by decide), leaves2 V c t 12 (by decide), leaves2 V c t 13 (by decide)]
  iintro ⟨⟨%xs, %hxs, ⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run2 c (grid2.coords t) (st2_0 t) (st2_1 t) (st2_2 t) (st2_3 t) (st2_4 t) (st2_5 t) (st2_6 t) (st2_7 t) (st2_8 t) (st2_9 t) (st2_10 t) (st2_11 t) (st2_12 t) (st2_13 t) (st2_14 t) scM2 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t)
    (fun h0 h1 => absurd (((hcond2_0 t).mp h0).symm.trans ((hcond2_1 t).mp h1)) (by decide)) ((dat2 V c).before 14 t d14) xs _ (acc_step V c t xs hxs) _ rfl Set.univ _)
  unfold own2
  isplitl [H0 H1 H2 H3 H4 H5 H6 H7 H8 H9 H10 H11 H12 H13 H14 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HS
  iintro ⟨H0, H1, H2, H3, H4, H5, H6, H7, H8, H9, H10, H11, H12, H13, H14, HS⟩
  isplitl [HS HR Hg]
  · iexists (accAt2 V c t.val t.isLt); isplitr
    · ipureintro; exact fun m h e => by cases e; rfl
    iframe
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (leaves2_14 V c t d14); iexact H14

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [PhiA2_eq, show (dat2 V c).Φ 0 = PhiS2 V c 0 from rfl]; unfold PhiS2 inv2
  iintro ⟨⟨⟨%d, HS⟩, HR⟩, Hg⟩; iexists d; isplitr
  · ipureintro; exact fun _ _ e => nomatch e
  iframe

theorem hout2 (c : Dev nD) : (dat2 V c).Φ (Fin.last cfg2.N) ⊢ (Pipeline.ΦA spec2 c : sProp 𝕄) := by
  rw [PhiA2_eq, show (dat2 V c).Φ (Fin.last cfg2.N) = PhiS2 V c cfg2.N from rfl]; unfold PhiS2 inv2
  iintro ⟨%d, -, ⟨HS, HR⟩, Hg⟩
  isplitl [HS HR]
  · isplitl [HS]
    · iexists d; iexact HS
    iexact HR
  iexact Hg

end Cert.KernelIdeal.Hand

end
-- ==== Proof.KI.Fold.lean ====
import proofs.«413317_j72215580115596_2_alg».proof.Proof.KI.RegA0
import proofs.«413317_j72215580115596_2_alg».proof.Proof.KI.RegA1
import proofs.«413317_j72215580115596_2_alg».proof.Proof.KI.RegR2

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev V5 : (c : Dev nD) → (b : Ref sig .tc) → Buf (Elt F) ((c : Thread nD τ).loc b) := fun c b => W5 m c b
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N :=
  Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) :=
  Pipeline.withArrays_of_ne spec0 c _ _ b hb
abbrev V6 : (c : Dev nD) → (b : Ref sig .tc) → Buf (Elt F) ((c : Thread nD τ).loc b) := fun c b => W6 m c b
abbrev W7 : Dev nD → Valuation τ sig (Elt F) := fun c => StableHlo.after hostOps1 (W6 m c)
abbrev V7 : (c : Dev nD) → (b : Ref sig .tc) → Buf (Elt F) ((c : Thread nD τ).loc b) := fun c b => W7 m c b
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N :=
  Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) :=
  Pipeline.withArrays_of_ne spec1 c _ _ b hb
abbrev V8 : (c : Dev nD) → (b : Ref sig .tc) → Buf (Elt F) ((c : Thread nD τ).loc b) := fun c b => W8 m c b
abbrev W9 : Dev nD → Valuation τ sig (Elt F) := fun c => StableHlo.after hostOps2 (W8 m c)
abbrev V9 : (c : Dev nD) → (b : Ref sig .tc) → Buf (Elt F) ((c : Thread nD τ).loc b) := fun c b => W9 m c b
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N :=
  Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) :=
  Pipeline.withArrays_of_ne spec2 c _ _ b hb
abbrev V10 : (c : Dev nD) → (b : Ref sig .tc) → Buf (Elt F) ((c : Thread nD τ).loc b) := fun c b => W10 m c b
abbrev W11 : Dev nD → Valuation τ sig (Elt F) := fun c => StableHlo.after hostOps3 (W10 m c)

end Cert.KernelIdeal.Hand

end
-- ==== Proof.KI.Run.lean ====
import proofs.«413317_j72215580115596_2_alg».proof.Proof.KI.Fold
import proofs.«413317_j72215580115596_2_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no stretch writes and that no region holds as an output holds its launch contents at the end. -/
theorem W11_launch (c : Dev nD) (r : Ref sig .tc)
    (h : r ∉ hostOps0_W ∧ r ∉ hostOps0_1_W ∧ r ∉ hostOps0_2_W ∧ r ∉ hostOps0_3_W ∧ r ∉ hostOps0_4_W ∧ r ∉ hostOps1_W
      ∧ r ∉ hostOps2_W ∧ r ∉ hostOps3_W ∧ (∀ w, Pipeline.arrRef spec0 w ≠ r) ∧ (∀ w, Pipeline.arrRef spec1 w ≠ r)
      ∧ ∀ w, Pipeline.arrRef spec2 w = r → (cfg2.win w).isOut = false) :
    W11 m c (Proc.devRef .tc r) = m ((c : Thread nD τ).loc r) := by
  obtain ⟨h0, h1, h2, h3, h4, h5, h6, h7, a0, a1, a2⟩ := h
  have h9 : W9 m c (Proc.devRef .tc r) = m ((c : Thread nD τ).loc r) :=
    (StableHlo.after_of_writes_sub _ _ hostOps2_writes h6).trans <| (W8_of_ne m c r a1).trans <|
    (StableHlo.after_of_writes_sub _ _ hostOps1_writes h5).trans <| (W6_of_ne m c r a0).trans <|
    (StableHlo.after_of_writes_sub _ _ hostOps0_4_writes h4).trans <|
    (StableHlo.after_of_writes_sub _ _ hostOps0_3_writes h3).trans <|
    (StableHlo.after_of_writes_sub _ _ hostOps0_2_writes h2).trans <|
    (StableHlo.after_of_writes_sub _ _ hostOps0_1_writes h1).trans <|
    StableHlo.after_of_writes_sub _ _ hostOps0_writes h0
  refine (StableHlo.after_of_writes_sub _ _ hostOps3_writes h7).trans ?_
  by_cases hw : ∃ w, Pipeline.arrRef spec2 w = r
  · obtain ⟨w, rfl⟩ := hw
    exact (W10_arr m c w).trans <| ((dat2 (V9 m) c).arrAt_in w (a2 w rfl) _).trans <| (A_eq2 (V9 m) c w).trans h9
  · exact (W10_of_ne m c r fun w e => hw ⟨w, e⟩).trans h9

def pdats : (p : Fin 3) → (c : Dev nD) → Dat τ (Elt F) Unit ℕ (UR sig nD τ) ℕ (Pipeline.pin (pcfgs (F := F)) adm p) c
  | ⟨0, _⟩ => dat0 (V5 m)
  | ⟨1, _⟩ => dat1 (V7 m)
  | ⟨2, _⟩ => dat2 (V9 m)

abbrev pairs₀ : GSem nD τ sig → Finset Unit := fun _ => ∅
abbrev level₀ : GSem nD τ sig → Unit → ℕ := fun _ _ => 0

abbrev R (c : Dev nD) : sProp 𝕄 :=
  iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Shared

variable {c : Dev nD}

theorem owesAt_of_none {cfg : Cfg sig Λ₀} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩
  iexists W
  isplitr
  · ipureintro; exact fun _ _ => Or.inl trivial
  iexact HO

theorem none_of_owesAt {cfg : Cfg sig Λ₀} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

/-- Entry: a rearrangement of separating conjunctions around the split of the buffers into arrays and rest. -/
theorem entry_sort {H A Rest PH OA OS Lv : sProp 𝕄}
    (hsplit : H ⊢ iprop(A ∗ Rest)) (hPH : (BI.emp : sProp 𝕄) ⊢ PH)
    (hO : (iprop(∃ W, owes (c : Thread nD τ) (0 : CellTallies nD τ sig Unit) W) : sProp 𝕄) ⊢ OA) :
    iprop((H ∗ R c) ∗ OS ∗ Lv) ⊢ (|={Set.univ}=> iprop(A ∗ PH ∗ OA ∗ (∃ r, prngReg c r) ∗ Rest) : sProp 𝕄) := by
  iintro ⟨⟨Hh, Hp, HO⟩, -, -⟩
  ihave Hs := hsplit $$ Hh
  icases Hs with ⟨Ha, Hrest⟩
  imodintro
  isplitl [Ha]; · iexact Ha
  isplitr
  · iapply hPH; iempintro
  isplitl [HO]
  · iapply hO; iexact HO
  isplitl [Hp]; · iexact Hp
  iexact Hrest

/-- Exit: the converse rearrangement around the join of arrays and rest. -/
theorem exit_join {A Rest OA H' : sProp 𝕄}
    (hjoin : iprop(A ∗ Rest) ⊢ H')
    (hO : OA ⊢ (iprop(∃ W, owes (c : Thread nD τ) (0 : CellTallies nD τ sig Unit) W) : sProp 𝕄)) :
    iprop(A ∗ OA ∗ (∃ r, prngReg c r) ∗ Rest) ⊢ (|={Set.univ}=> iprop(H' ∗ R c) : sProp 𝕄) := by
  iintro ⟨Ha, HO, HY, Hrest⟩
  imodintro
  isplitl [Ha Hrest]
  · iapply hjoin; isplitl [Ha] <;> iassumption
  isplitl [HY]; · iexact HY
  iapply hO; iexact HO

theorem ΦA_in {gr W : Nat} (win : Fin W → Pipeline.WinSpec sig gr) (c : Dev nD) (PH : sProp 𝕄) :
    iprop((∃ r, prngReg c r) ∗ PH ∗ Pipeline.scopedRest win c) ⊢ (Pipeline.ΦA win c : sProp 𝕄) := by
  unfold Pipeline.ΦA
  iintro ⟨Hp, -, Hr⟩
  isplitl [Hr]; · iexact Hr
  iexact Hp

theorem ΦA_out {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

end Shared

set_option backward.isDefEq.respectTransparency.types false in
/-- Region `p` as a segment from the contents `Wi` to `Wo`, which agree off the region's arrays. -/
def reg (p : Fin 3) (la : Pipeline.LaunchFacts (nD := nD) (τ := τ) cfgs p) (Wi Wo : Dev nD → Valuation τ sig (Elt F))
    (hb : ∀ c, BodyObligation (pdats m p c) (defs₀ (F := F)) Variants.none () Set.univ)
    (howed : ∀ c t, (pdats m p c).owed t = 0) (hrec : ∀ c, (pdats m p c).recorded 0 = Set.univ)
    (hq : ∀ c w, (pdats m p c).q w = fullShare)
    (hA : ∀ c w, (pdats m p c).A w = Wi c (Pipeline.arrRef (cfgs p).spec w))
    (harr : ∀ c w, Wo c (Proc.devRef .tc (Pipeline.arrRef (cfgs p).spec w)) = (pdats m p c).arrAt w (cfgs p).N)
    (hne : ∀ c b, (∀ w, Pipeline.arrRef (cfgs p).spec w ≠ b) → Wo c (Proc.devRef .tc b) = Wi c (Proc.devRef .tc b))
    (hi : ∀ c, (Pipeline.ΦA (cfgs p).spec c : sProp 𝕄) ⊢ (pdats m p c).Φ 0)
    (ho : ∀ c, (pdats m p c).Φ (Fin.last (cfgs p).N) ⊢ (Pipeline.ΦA (cfgs p).spec c : sProp 𝕄)) :
    Pipeline.RegionSeg (pcfgs (F := F)) adm (pdats m) () defs₀ Variants.none pairs₀ level₀ p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ pairs₀ level₀ p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    have hsplit := Pipeline.arrays_of_unscopedBufs (p := p) (pcfgs (F := F)) adm (pdats m) la.win la.arr_whole c
      ((pdats m p c).share_full (hq c)) (fun b => Wi c b) (hA c)
    rw [Pipeline.unscopedBufs_held] at hsplit
    refine entry_sort hsplit ?_ (owesAt_of_none (pdats m p c) 0 (howed c 0) (hrec c))
    unfold Pipeline.prefHeld; rw [show (Finset.univ : Finset (Fin 0)) = ∅ from rfl, BI.bigSep_empty]
  hin c := (ΦA_in (cfgs p).spec c _).trans (hi c)
  hout c := by rw [Pipeline.ownSems0_none]; exact (ho c).trans (ΦA_out (cfgs p).spec c)
  hexit c := by
    have hjoin := Pipeline.unscopedBufs_of_arrays (p := p) (pcfgs (F := F)) adm (Ix := Unit) (Name := ℕ) (U := UR sig nD τ) (Lvl := ℕ)
      la.win la.arr_whole c (pdats m) ((pdats m p c).share_full (hq c))
      (fun b => Wi c b) (fun b => Wo c b) ((pdats m p c).arrAt · (cfgs p).N) (fun w => (harr c w).symm)
      (fun b hb => hne c b fun w e => hb (Finset.mem_image.mpr ⟨w, Finset.mem_univ _, e⟩))
    rw [Pipeline.unscopedBufs_held] at hjoin
    exact exit_join hjoin (none_of_owesAt (pdats m p c) _ (howed c _))

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none pairs₀ level₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev runSegs : List (Pipeline.Seg (pcfgs (F := F)) adm (pdats m) () defs₀ Variants.none pairs₀ level₀) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg m 0 launch0 (W5 m) (W6 m) (body_obligation0 (V5 m)) (fun _ _ => rfl) (fun _ => rfl) (fun _ _ => rfl)
      (fun _ _ => rfl) (W6_arr m) (W6_of_ne m) (fun _ => .rfl) fun _ => .rfl),
    .host (hseg hostOps1 hostOps1_sub hostOps1_fresh (W6 m)),
    .region (reg m 1 launch1 (W7 m) (W8 m) (body_obligation1 (V7 m)) (fun _ _ => rfl) (fun _ => rfl) (fun _ _ => rfl)
      (fun _ _ => rfl) (W8_arr m) (W8_of_ne m) (fun _ => .rfl) fun _ => .rfl),
    .host (hseg hostOps2 hostOps2_sub hostOps2_fresh (W8 m)),
    .region (reg m 2 launch2 (W9 m) (W10 m) (body_obligation2 (V9 m)) (fun _ _ => rfl) (fun _ => rfl) (fun _ _ => rfl)
      (fun _ _ => rfl) (W10_arr m) (W10_of_ne m) (hin2 (V9 m)) (hout2 (V9 m))),
    .host (hseg hostOps3 hostOps3_sub hostOps3_fresh (W10 m)) ]

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ Variants.none pairs₀ level₀ m ρ main (runSegs m)
    (fun c Q => by
      rewrite [main_chain c, Pipeline.Seg.run_eq_chain]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      refine .trans ?_ fupd_intro
      exact sep_emp_intro.trans (sep_mono .rfl (Entails.of_eq (BI.bigSep_emp_const _).symm)))
    (T₀ := fun c => iprop(StableHlo.held (c : Thread nD τ) (Pipeline.ucRefs τ sig) (W0 m c) ∗ R c)) (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach pairs₀ level₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- The run, read at the result and at the thirteen arguments. -/
theorem run_val : θ_run defs (onTc (τ := τ) (main (F := F))) ⟨m, fun _ => 0, ρ⟩ (fun r => ∀ c : Dev nD,
      r.2.mem ((c.tc : Thread nD τ).loc main_v101) = W11 m c main_v101
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    have k (b : Ref sig .tc) (u) (e) : r.2.mem ((c.tc : Thread nD τ).loc b) = m ((c.tc : Thread nD τ).loc b) :=
      (h c _ (mem_uc b u)).trans (W11_launch m c b e)
    refine ⟨h c _ (mem_uc main_v101 (by decide)), ?_⟩
    and_intros <;> exact k _ (by decide) (by decide)) (run_all m ρ)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

structure Args where
  x : (⟨2, ![100000, 64]⟩ : Shape).Idx → EReal
  ei : (⟨2, ![2, 1600000]⟩ : Shape).Idx → BitVec 32
  batch : (⟨1, ![100000]⟩ : Shape).Idx → BitVec 32
  W1 : (⟨3, ![3, 64, 64]⟩ : Shape).Idx → EReal
  b1 : (⟨2, ![3, 64]⟩ : Shape).Idx → EReal
  W2 : (⟨3, ![3, 64, 64]⟩ : Shape).Idx → EReal
  b2 : (⟨2, ![3, 64]⟩ : Shape).Idx → EReal
  gamma : (⟨2, ![3, 64]⟩ : Shape).Idx → EReal
  beta : (⟨2, ![3, 64]⟩ : Shape).Idx → EReal
  fc1W : (⟨2, ![64, 32]⟩ : Shape).Idx → EReal
  fc1b : (⟨1, ![32]⟩ : Shape).Idx → EReal
  fc2W : (⟨2, ![32, 1]⟩ : Shape).Idx → EReal
  fc2b : (⟨1, ![1]⟩ : Shape).Idx → EReal

variable (A : Args)

def src (e : Fin 1600000) : ℤ := (A.ei (ix2 (0 : Fin 2) e)).toInt
def dst (e : Fin 1600000) : ℤ := (A.ei (ix2 (1 : Fin 2) e)).toInt
def graphOf (r : Fin 100000) : ℤ := (A.batch (ix1 r)).toInt

def selRow (n : ℕ) (s : ℤ) : ℕ := min (if s < 0 then s + (n : ℤ) else s).toNat (n - 1)

def denseF (W1 : Fin 64 → Fin 64 → EReal) (b1 : Fin 64 → EReal) (W2 : Fin 64 → Fin 64 → EReal) (b2 γ β : Fin 64 → EReal)
    (a : Fin 64 → EReal) : Fin 64 → EReal := fun d =>
  max (((∑ k : Fin 64, max ((∑ j : Fin 64, a j * W1 j k) + b1 k) 0 * W2 k d) + b2 d) * γ d + β d) 0

def dense (i : Fin 3) (a : Fin 64 → EReal) : Fin 64 → EReal :=
  denseF (fun j k => A.W1 (ix3 i j k)) (fun k => A.b1 (ix2 i k)) (fun k d => A.W2 (ix3 i k d)) (fun d => A.b2 (ix2 i d))
    (fun d => A.gamma (ix2 i d)) (fun d => A.beta (ix2 i d)) a

def agg (n : ℕ) (h : ℕ → Fin 64 → EReal) (r : ℕ) (k : Fin 64) : EReal :=
  ∑ e ∈ Finset.univ.filter (fun e : Fin 1600000 => dst A e = (r : ℤ)), h (selRow n (src A e)) k

def layer (n : ℕ) (i : Fin 3) (h : ℕ → Fin 64 → EReal) : ℕ → Fin 64 → EReal := fun r =>
  dense A i (fun k => h r k + agg A n h r k)

def x0 : ℕ → Fin 64 → EReal := fun r k => if hr : r < 100000 then A.x (ix2 ⟨r, hr⟩ k) else 0

def feats (n : ℕ) : ℕ → Fin 64 → EReal := layer A n 2 (layer A n 1 (layer A n 0 (x0 A)))

def count (g : Fin 128) : EReal :=
  0 + ∑ _r ∈ Finset.univ.filter (fun r : Fin 100000 => graphOf A r = (g.val : ℤ)), (1 : EReal)

def headF (fc1W : Fin 64 → Fin 32 → EReal) (fc1b : Fin 32 → EReal) (fc2W : Fin 32 → EReal) (fc2b : EReal)
    (p : Fin 64 → EReal) : EReal :=
  (∑ j : Fin 32, max ((∑ k : Fin 64, p k * fc1W k j) + fc1b j) 0 * fc2W j) + fc2b

def head (p : Fin 64 → EReal) : EReal :=
  headF (fun k j => A.fc1W (ix2 k j)) (fun j => A.fc1b (ix1 j)) (fun j => A.fc2W (ix2 j (0 : Fin 1))) (A.fc2b (ix1 (0 : Fin 1))) p

def sumR (g : Fin 128) (k : Fin 64) : EReal :=
  0 + ∑ r ∈ Finset.univ.filter (fun r : Fin 100000 => graphOf A r = (g.val : ℤ)), feats A 100000 r.val k

def outR (g : Fin 128) : EReal := head A (fun k => Ideal.div (sumR A g k) (max (count A g) 1))

def graphPad (r : ℕ) : ℤ := if hr : r < 100000 then graphOf A ⟨r, hr⟩ else 128

def blockSum (h : ℕ → Fin 64 → EReal) (t : ℕ) (g : Fin 128) (k : Fin 64) : EReal :=
  ∑ q : Fin 2944, (if (g.val : ℤ) = graphPad A (t * 2944 + q.val) then (1 : EReal) else 0) * h (t * 2944 + q.val) k

def accK (h : ℕ → Fin 64 → EReal) : ℕ → Fin 128 → Fin 64 → EReal
  | 0 => fun g k => 0 + (0 + blockSum A h 0 g k)
  | t + 1 => fun g k => accK h t g k + (0 + blockSum A h (t + 1) g k)

def outK (g : Fin 128) : EReal :=
  head A (fun k => Ideal.div (accK A (feats A 100096) 33 g k) (max (count A g) 1))

end Cert.Spec

end
-- ==== Proof.KI.ValDefs.lean ====
import proofs.«413317_j72215580115596_2_alg».proof.Proof.KI.Fold
import proofs.«413317_j72215580115596_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

def argsK : Cert.Spec.Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12)⟩

def tabP (h : FVec Ideal S100096x64 .f32) : ℕ → Fin 64 → EReal :=
  fun r k => if hr : r < 100096 then h (ix2 ⟨r, hr⟩ k) else 0

theorem tabP_of_lt (h : FVec Ideal S100096x64 .f32) (r : Fin 100096) (k : Fin 64) : tabP h r.val k = h (ix2 r k) := by
  unfold tabP; rw [dif_pos r.isLt]

end Cert.KernelIdeal.Hand

end
-- ==== Proof.LibRows.lean ====
import Idealize.ShloMosaic.PureOps.Ideal
import Idealize.ShloMosaic.Lib.ValueIdxRank1

noncomputable section

namespace Cert.LibRows

open Idealize.ShloMosaic Idealize.ShloMosaic.ValueIdx

variable {n E C w : ℕ}

abbrev rowsGather (n E C : ℕ)
    (wf : GatherDims.WF ⟨2, ![n, C]⟩ ⟨2, ![E, 1]⟩ ⟨2, ![E, C]⟩ [1] [0] [] [0] [] 1 ![1, C]) :
    GatherDims ⟨2, ![n, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section GatherAxes
variable (wf : GatherDims.WF ⟨2, ![n, C]⟩ ⟨2, ![E, 1]⟩ ⟨2, ![E, C]⟩ [1] [0] [] [0] [] 1 ![1, C])
  (idx : IVec ⟨2, ![E, 1]⟩ w) (e : Fin E) (k : Fin C)

theorem rg_start0 : (rowsGather n E C wf).start (ix2 e k) idx (0 : Fin 2)
    = min (idx (ix2 e (0 : Fin 1))).toInt.toNat (n - 1) :=
  (dif_pos (show (0 : Fin 2) ∈ ([0] : List (Fin 2)) from List.mem_singleton.mpr rfl)).trans
    (congrArg (fun j => min (idx j).toInt.toNat (n - 1))
      (funext fun b => Fin.ext (match b with | ⟨0, _⟩ => rfl | ⟨1, _⟩ => rfl)))

theorem rg_start1 : (rowsGather n E C wf).start (ix2 e k) idx (1 : Fin 2) = 0 :=
  dif_neg (show (1 : Fin 2) ∉ ([0] : List (Fin 2)) from by decide)

theorem rg_off0 : (rowsGather n E C wf).offCoord (ix2 e k) (0 : Fin 2) = 0 :=
  GatherDims.offCoord_eq_zero _ _ _ (fun h => ((GatherDims.mem_sKept _ _).mp h).1 (List.mem_singleton.mpr rfl))

theorem rg_off1 : (rowsGather n E C wf).offCoord (ix2 e k) (1 : Fin 2) = k.val :=
  dif_pos ((GatherDims.mem_sKept _ _).mpr ⟨(show (1 : Fin 2) ∉ ([0] : List (Fin 2)) from by decide), List.not_mem_nil⟩)

end GatherAxes

theorem gather_rows_apply {α : Type} (hn : 0 < n)
    (wf : GatherDims.WF ⟨2, ![n, C]⟩ ⟨2, ![E, 1]⟩ ⟨2, ![E, C]⟩ [1] [0] [] [0] [] 1 ![1, C])
    (x : (⟨2, ![n, C]⟩ : Shape).Idx → α) (idx : IVec ⟨2, ![E, 1]⟩ w) (e : Fin E) (k : Fin C) :
    Host.gather (rowsGather n E C wf) x idx (ix2 e k)
      = x (ix2 ⟨min (idx (ix2 e (0 : Fin 1))).toInt.toNat (n - 1), by omega⟩ k) := by
  unfold Host.gather
  congr 1
  funext a
  refine Fin.ext ?_
  show (rowsGather n E C wf).start (ix2 e k) idx a + (rowsGather n E C wf).batchCoord (ix2 e k) a
    + (rowsGather n E C wf).offCoord (ix2 e k) a = _
  rw [GatherDims.batchCoord_eq_zero _ _ _ List.not_mem_nil, Nat.add_zero]
  revert a
  exact Fin.forall_fin_two.2 ⟨(congrArg₂ (· + ·) (rg_start0 wf idx e k) (rg_off0 wf e k)).trans (Nat.add_zero _),
    (congrArg₂ (· + ·) (rg_start1 wf idx e k) (rg_off1 wf e k)).trans (Nat.zero_add _)⟩

-- An update lands on `i` exactly when start plus window coordinate is `i`'s coordinate on every axis.
theorem resultIdx?_eq_some {s si u : Shape} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i hc
    rw [Option.some.injEq, funext_iff]
    exact forall_congr' fun a => ⟨fun h => by have := hc a; have := congrArg Fin.val h; simp only at this; omega,
      fun h => Fin.ext (by show (_ : ℤ).toNat = _; omega)⟩
  · rename_i hc
    exact ⟨(nomatch ·), fun h => absurd (fun a => by rw [h a]; have := (i a).isLt; omega) hc⟩

abbrev rowsScatter (n E C : ℕ)
    (wf : ScatterDims.WF ⟨2, ![n, C]⟩ ⟨2, ![E, 1]⟩ ⟨2, ![E, C]⟩ [1] [0] [0] 1) :
    ScatterDims ⟨2, ![n, C]⟩ ⟨2, ![E, 1]⟩ ⟨2, ![E, C]⟩ where
  updateWindowDims := [1]
  insertedWindowDims := [0]
  scatterDimsToOperandDims := [0]
  indexVectorDim := 1
  wf := wf

section ScatterAxes
variable (wf : ScatterDims.WF ⟨2, ![n, C]⟩ ⟨2, ![E, 1]⟩ ⟨2, ![E, C]⟩ [1] [0] [0] 1)
  (idx : IVec ⟨2, ![E, 1]⟩ w) (e : Fin E) (k : Fin C)

theorem rs_start0 : (rowsScatter n E C wf).start (ix2 e k) idx (0 : Fin 2) = (idx (ix2 e (0 : Fin 1))).toInt :=
  (dif_pos (show (0 : Fin 2) ∈ ([0] : List (Fin 2)) from List.mem_singleton.mpr rfl)).trans
    (congrArg (fun j => (idx j).toInt) (funext fun b => Fin.ext (match b with | ⟨0, _⟩ => rfl | ⟨1, _⟩ => rfl)))

theorem rs_start1 : (rowsScatter n E C wf).start (ix2 e k) idx (1 : Fin 2) = 0 :=
  dif_neg (show (1 : Fin 2) ∉ ([0] : List (Fin 2)) from by decide)

theorem rs_win0 : (rowsScatter n E C wf).window (ix2 e k) (0 : Fin 2) = 0 :=
  dif_neg (show (0 : Fin 2) ∉ (List.finRange 2).filter (· ∉ ([0] : List (Fin 2))) from by decide)

theorem rs_win1 : (rowsScatter n E C wf).window (ix2 e k) (1 : Fin 2) = k.val :=
  dif_pos (show (1 : Fin 2) ∈ (List.finRange 2).filter (· ∉ ([0] : List (Fin 2))) from by decide)

end ScatterAxes

theorem scatter_rows_resultIdx (wf : ScatterDims.WF ⟨2, ![n, C]⟩ ⟨2, ![E, 1]⟩ ⟨2, ![E, C]⟩ [1] [0] [0] 1)
    (idx : IVec ⟨2, ![E, 1]⟩ w) (e : Fin E) (k : Fin C) (r : Fin n) (k' : Fin C) :
    (rowsScatter n E C wf).resultIdx? (ix2 e k) idx = some (ix2 r k')
      ↔ (idx (ix2 e (0 : Fin 1))).toInt = (r.val : ℤ) ∧ k = k' := by
  refine (resultIdx?_eq_some _ _ _ _).trans (Fin.forall_fin_two.trans ?_)
  rw [rs_start0, rs_win0, rs_start1, rs_win1, Fin.ext_iff]
  show _ + ((0 : ℕ) : ℤ) = (r.val : ℤ) ∧ 0 + (k.val : ℤ) = (k'.val : ℤ) ↔ _
  omega

open Classical in
theorem scatterAdd_rows_apply (wf : ScatterDims.WF ⟨2, ![n, C]⟩ ⟨2, ![E, 1]⟩ ⟨2, ![E, C]⟩ [1] [0] [0] 1)
    (x : (⟨2, ![n, C]⟩ : Shape).Idx → EReal) (idx : IVec ⟨2, ![E, 1]⟩ w) (upd : (⟨2, ![E, C]⟩ : Shape).Idx → EReal)
    (r : Fin n) (k : Fin C) :
    Ideal.hostScatterAdd (rowsScatter n E C wf) x idx upd (ix2 r k)
      = x (ix2 r k) + ∑ e ∈ Finset.univ.filter (fun e : Fin E => (idx (ix2 e (0 : Fin 1))).toInt = (r.val : ℤ)), upd (ix2 e k) := by
  unfold Ideal.hostScatterAdd
  congr 1
  rw [Finset.sum_filter, sum_idx2, Finset.sum_filter]
  refine Finset.sum_congr rfl fun e _ => ?_
  by_cases he : (idx (ix2 e (0 : Fin 1))).toInt = (r.val : ℤ)
  · rw [if_pos he, Finset.sum_eq_single k (fun q _ hq => if_neg fun h => hq ((scatter_rows_resultIdx wf idx e q r k).mp h).2)
      (fun h => absurd (Finset.mem_univ k) h), if_pos ((scatter_rows_resultIdx wf idx e k r k).mpr ⟨he, rfl⟩)]
  · rw [if_neg he]
    exact Finset.sum_eq_zero fun q _ => if_neg fun h => he ((scatter_rows_resultIdx wf idx e q r k).mp h).1

abbrev vecScatter (n E : ℕ) (wf : ScatterDims.WF ⟨1, ![n]⟩ ⟨2, ![E, 1]⟩ ⟨1, ![E]⟩ [] [0] [0] 1) :
    ScatterDims ⟨1, ![n]⟩ ⟨2, ![E, 1]⟩ ⟨1, ![E]⟩ where
  updateWindowDims := []
  insertedWindowDims := [0]
  scatterDimsToOperandDims := [0]
  indexVectorDim := 1
  wf := wf

section VecAxes
variable (wf : ScatterDims.WF ⟨1, ![n]⟩ ⟨2, ![E, 1]⟩ ⟨1, ![E]⟩ [] [0] [0] 1)
  (idx : IVec ⟨2, ![E, 1]⟩ w) (e : Fin E)

theorem vs_start0 : (vecScatter n E wf).start (ix1 e) idx (0 : Fin 1) = (idx (ix2 e (0 : Fin 1))).toInt :=
  (dif_pos (show (0 : Fin 1) ∈ ([0] : List (Fin 1)) from List.mem_singleton.mpr rfl)).trans
    (congrArg (fun j => (idx j).toInt) (funext fun b => Fin.ext (match b with | ⟨0, _⟩ => rfl | ⟨1, _⟩ => rfl)))

theorem vs_win0 : (vecScatter n E wf).window (ix1 e) (0 : Fin 1) = 0 :=
  dif_neg (show (0 : Fin 1) ∉ (List.finRange 1).filter (· ∉ ([0] : List (Fin 1))) from by decide)

end VecAxes

theorem scatter_vec_resultIdx (wf : ScatterDims.WF ⟨1, ![n]⟩ ⟨2, ![E, 1]⟩ ⟨1, ![E]⟩ [] [0] [0] 1)
    (idx : IVec ⟨2, ![E, 1]⟩ w) (e : Fin E) (g : Fin n) :
    (vecScatter n E wf).resultIdx? (ix1 e) idx = some (ix1 g) ↔ (idx (ix2 e (0 : Fin 1))).toInt = (g.val : ℤ) := by
  refine (resultIdx?_eq_some _ _ _ _).trans (Fin.forall_fin_one.trans ?_)
  rw [vs_start0, vs_win0]
  show _ + ((0 : ℕ) : ℤ) = (g.val : ℤ) ↔ _
  omega

open Classical in
theorem scatterAdd_vec_apply (wf : ScatterDims.WF ⟨1, ![n]⟩ ⟨2, ![E, 1]⟩ ⟨1, ![E]⟩ [] [0] [0] 1)
    (x : (⟨1, ![n]⟩ : Shape).Idx → EReal) (idx : IVec ⟨2, ![E, 1]⟩ w) (upd : (⟨1, ![E]⟩ : Shape).Idx → EReal) (g : Fin n) :
    Ideal.hostScatterAdd (vecScatter n E wf) x idx upd (ix1 g)
      = x (ix1 g) + ∑ e ∈ Finset.univ.filter (fun e : Fin E => (idx (ix2 e (0 : Fin 1))).toInt = (g.val : ℤ)), upd (ix1 e) := by
  unfold Ideal.hostScatterAdd
  congr 1
  rw [Finset.sum_filter, ← Equiv.sum_comp idxEquiv1.symm, Finset.sum_filter]
  exact Finset.sum_congr rfl fun e _ => if_congr (scatter_vec_resultIdx wf idx e g) rfl rfl

end Cert.LibRows

end
-- ==== Proof.KI.ValHostLib.lean ====
import proofs.«413317_j72215580115596_2_alg».proof.Proof.KI.ValDefs
import proofs.«413317_j72215580115596_2_alg».proof.Proof.LibRows
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

section Reads

variable {α : Type}

-- The cast drops the unit axis; the slice shifts the first coordinate by its offset.
theorem mat_read (X : (⟨3, ![3, 64, 64]⟩ : Shape).Idx → α) (o : ℕ)
    (hs : (⟨3, ![3, 64, 64]⟩ : Shape).Slices ![o, 0, 0] ⟨3, ![1, 64, 64]⟩)
    (hc : (⟨3, ![1, 64, 64]⟩ : Shape).ShapeCasts ⟨2, ![64, 64]⟩) (l : Fin 3) (hl : l.val = o) (j k : Fin 64) :
    shapeCast ⟨2, ![64, 64]⟩ (extractStridedSlice ⟨3, ![1, 64, 64]⟩ ![o, 0, 0] X hs) hc (ix2 j k) = X (ix3 l j k) := by
  rw [shapeCast_1ab_ab_apply]
  exact extractStridedSlice_apply _ _ _ _ _ (fun ax => by
    match ax with
    | ⟨0, _⟩ => exact hl
    | ⟨1, _⟩ => exact (Nat.zero_add _).symm
    | ⟨2, _⟩ => exact (Nat.zero_add _).symm)

theorem row_read (X : (⟨2, ![3, 64]⟩ : Shape).Idx → α) (o : ℕ)
    (hs : (⟨2, ![3, 64]⟩ : Shape).Slices ![o, 0] ⟨2, ![1, 64]⟩)
    (hc : (⟨2, ![1, 64]⟩ : Shape).ShapeCasts ⟨1, ![64]⟩) (hc' : (⟨1, ![64]⟩ : Shape).ShapeCasts ⟨2, ![1, 64]⟩)
    (l : Fin 3) (hl : l.val = o) (k : Fin 64) :
    shapeCast ⟨2, ![1, 64]⟩ (shapeCast ⟨1, ![64]⟩ (extractStridedSlice ⟨2, ![1, 64]⟩ ![o, 0] X hs) hc) hc' (ix2 (0 : Fin 1) k)
      = X (ix2 l k) := by
  rw [shapeCast_a_1a_apply, shapeCast_1a_a_apply]
  exact slice2_axis0_apply o X hs (0 : Fin 1) k l hl

theorem col_of_vec_apply {n : ℕ} (v : (⟨1, ![n]⟩ : Shape).Idx → α)
    (hb : (⟨1, ![n]⟩ : Shape).BroadcastsInDim ⟨2, ![n, 1]⟩ ![0]) (e : Fin n) (hn : n ≠ 1) :
    broadcastInDim ⟨2, ![n, 1]⟩ ![0] hb v (ix2 e (0 : Fin 1)) = v (ix1 e) := by
  refine broadcastInDim_apply _ hb v _ (ix1 e) fun a => ?_
  match a with
  | ⟨0, _⟩ => exact (if_neg hn).symm

end Reads

def selWord (sv : IVec S1600000 32) : IVec S1600000 32 :=
  select (cmpi .slt sv (broadcastInDim S1600000 ![] bcast_S_S1600000 (constantI S_ 32 0#32)))
    (addi sv (broadcastInDim S1600000 ![] bcast_S_S1600000 (constantI S_ 32 100096#32))) sv

def gatherRows (hprev : FVec Ideal S100096x64 .f32) (sv : IVec S1600000 32) : FVec Ideal S1600000x64 .f32 :=
  extf .f32 (Host.gather gather_S100096x64_S1600000x1_S1600000x64_1_0_n_n_0_1_164 (truncf .bf16 hprev bitsLt_bf16_f32)
    (broadcastInDim S1600000x1 ![0] bcast_S1600000_S1600000x1_0 (selWord sv))) bitsLt_bf16_f32

def aggTerm (hprev : FVec Ideal S100096x64 .f32) (sv dv : IVec S1600000 32) : FVec Ideal S100096x64 .f32 :=
  Host.scatterAdd scatter_S100096x64_S1600000x1_S1600000x64_1_0_0_1
    (broadcastInDim S100096x64 ![] bcast_S_S100096x64 (constant S_ .f32 0x00000000#32))
    (broadcastInDim S1600000x1 ![0] bcast_S1600000_S1600000x1_0 dv)
    (gatherRows hprev sv)

-- A negative word is at least -2^31, so adding 100096 stays inside the signed range.
theorem selWord_toInt (sv : IVec S1600000 32) (e : Fin 1600000) :
    (selWord sv (ix1 e)).toInt = if (sv (ix1 e)).toInt < 0 then (sv (ix1 e)).toInt + 100096 else (sv (ix1 e)).toInt := by
  show (Scalar.select (IntOp.cmpi .slt (sv (ix1 e)) 0#32) (sv (ix1 e) + 100096#32) (sv (ix1 e))).toInt = _
  generalize sv (ix1 e) = x
  have hc : IntOp.cmpi .slt x 0#32 = BitVec.ofBool (decide (x.toInt < 0)) := by
    show BitVec.ofBool (decide (x.toInt < (0#32 : BitVec 32).toInt)) = _
    rw [show (0#32 : BitVec 32).toInt = 0 from by decide]
  rw [hc]
  by_cases hs : x.toInt < 0
  · rw [decide_eq_true hs, if_pos hs]
    show (x + 100096#32).toInt = _
    have hlo := BitVec.le_toInt x
    rw [BitVec.toInt_add, Int.bmod_def, show (100096#32 : BitVec 32).toInt = 100096 from by decide]
    norm_num at hlo ⊢
    split <;> omega
  · rw [decide_eq_false hs, if_neg hs]; rfl

theorem gatherRows_apply (hprev : FVec Ideal S100096x64 .f32) (sv : IVec S1600000 32) (e : Fin 1600000) (k : Fin 64) :
    gatherRows hprev sv (ix2 e k) = tabP hprev (Cert.Spec.selRow 100096 (sv (ix1 e)).toInt) k := by
  have hg := Cert.LibRows.gather_rows_apply (n := 100096) (E := 1600000) (C := 64) (by norm_num)
    gather_S100096x64_S1600000x1_S1600000x64_1_0_n_n_0_1_164.wf
    (truncf .bf16 hprev bitsLt_bf16_f32) (broadcastInDim S1600000x1 ![0] bcast_S1600000_S1600000x1_0 (selWord sv)) e k
  have h1 : gatherRows hprev sv (ix2 e k)
      = Host.gather gather_S100096x64_S1600000x1_S1600000x64_1_0_n_n_0_1_164 (truncf .bf16 hprev bitsLt_bf16_f32)
          (broadcastInDim S1600000x1 ![0] bcast_S1600000_S1600000x1_0 (selWord sv)) (ix2 e k) := rfl
  rw [h1]
  refine hg.trans ?_
  rw [truncf_apply]
  refine (tabP_of_lt hprev ⟨_, _⟩ k).symm.trans ?_
  show tabP hprev (min ((broadcastInDim S1600000x1 ![0] bcast_S1600000_S1600000x1_0 (selWord sv)) (ix2 e (0 : Fin 1))).toInt.toNat (100096 - 1)) k = _
  rw [col_of_vec_apply _ _ _ (by decide), selWord_toInt]
  rfl

-- The zero table adds nothing; each edge whose destination word is r adds its gathered row.
theorem aggTerm_apply (hprev : FVec Ideal S100096x64 .f32) (sv dv : IVec S1600000 32) (r : Fin 100096) (k : Fin 64) :
    aggTerm hprev sv dv (ix2 r k)
      = 0 + ∑ e ∈ Finset.univ.filter (fun e : Fin 1600000 => (dv (ix1 e)).toInt = (r.val : ℤ)),
          tabP hprev (Cert.Spec.selRow 100096 (sv (ix1 e)).toInt) k := by
  have hs := Cert.LibRows.scatterAdd_rows_apply (n := 100096) (E := 1600000) (C := 64)
    scatter_S100096x64_S1600000x1_S1600000x64_1_0_0_1.wf
    (broadcastInDim S100096x64 ![] bcast_S_S100096x64 (constant (F := Ideal) S_ .f32 0x00000000#32))
    (broadcastInDim S1600000x1 ![0] bcast_S1600000_S1600000x1_0 dv) (gatherRows hprev sv) r k
  have h1 : aggTerm hprev sv dv = Ideal.hostScatterAdd scatter_S100096x64_S1600000x1_S1600000x64_1_0_0_1
    (broadcastInDim S100096x64 ![] bcast_S_S100096x64 (constant (F := Ideal) S_ .f32 0x00000000#32))
    (broadcastInDim S1600000x1 ![0] bcast_S1600000_S1600000x1_0 dv) (gatherRows hprev sv) := rfl
  rw [h1]
  refine hs.trans (congrArg₂ (· + ·) Ideal.ofBits_zero_f32 ?_)
  refine Finset.sum_congr (Finset.ext fun e => ?_) (fun e _ => gatherRows_apply hprev sv e k)
  rw [Finset.mem_filter, Finset.mem_filter, col_of_vec_apply _ _ _ (by decide)]

end Cert.KernelIdeal.Hand

end
-- ==== Proof.KI.ValHost0.lean ====
import proofs.«413317_j72215580115596_2_alg».proof.Proof.KI.ValHostLib
import proofs.«413317_j72215580115596_2_alg».proof.Proof.Gen.KernelIdeal.Regions
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

-- The last stretch before the first region computes the stage from the table and the two rows of the edge list.
theorem V5_v23 : V5 m c main_v23 = aggTerm (V5 m c main_v0) (V5 m c main_v4) (V5 m c main_v6) := by
  dsimp only [V5, W5, hostOps0_4, aggTerm, gatherRows, selWord]; after_results_simp

end Cert.KernelIdeal.Hand

end
-- ==== Proof.KI.ValPay.lean ====
import proofs.«413317_j72215580115596_2_alg».proof.Proof.Gen.KernelIdeal.Skeleton
import proofs.«413317_j72215580115596_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.ValPay

open Cert.KernelIdeal Cert.KernelIdeal.Gen Idealize.ShloMosaic Idealize.ShloMosaic.ValueIdx

/-- A block element sits in its array, on each axis, at block index times block extent plus its own coordinate. -/
theorem emb_eq {G : Pipeline.Grid} (w : Pipeline.Window sig G) (t : Fin G.N) (y : (w.xblock (G.coords t)).Idx) (i : w.shape.Idx)
    (hi : ∀ a, (i a : ℕ) = w.index t a * w.size a + y a) : (w.rect t).emb y = i :=
  funext fun a => Fin.ext ((w.rect_emb_val t y a).trans (hi a).symm)

/-- Where the block index is zero on every axis, a block element keeps its coordinates. -/
theorem emb_whole {G : Pipeline.Grid} (w : Pipeline.Window sig G) (t : Fin G.N) (h : ∀ a, w.index t a = 0)
    (y : (w.xblock (G.coords t)).Idx) (i : w.shape.Idx) (hi : ∀ a, (i a : ℕ) = y a) : (w.rect t).emb y = i :=
  emb_eq w t y i fun a => by rw [h a, hi a, Nat.zero_mul, Nat.zero_add]

/-- The operand indices at (p, d) and contraction coordinate k are (p, k) and (k, d); the sum is re-indexed by that coordinate. -/
theorem matmul_zero_ix2 {a b c : ℕ} (D : DotDims ⟨2, ![a, b]⟩ ⟨2, ![b, c]⟩ ⟨2, ![a, c]⟩) (hD : D = DotDims.plain a b c)
    {φ₁ φ₂ : FTy} (l : FVec Ideal ⟨2, ![a, b]⟩ φ₁) (r : FVec Ideal ⟨2, ![b, c]⟩ φ₂) (p : Fin a) (d : Fin c) :
    FloatOps.matmul D none l r (constant (F := Ideal) ⟨2, ![a, c]⟩ .f32 0x00000000#32) (ix2 p d)
      = ∑ k : Fin b, l (ix2 p k) * r (ix2 k d) := by
  subst hD
  rw [Ideal.matmul_constant_zero_apply, ← Equiv.sum_comp (contrEquiv1 (DotDims.plain a b c) b rfl rfl).symm]
  refine Finset.sum_congr rfl fun k _ => ?_
  have hk := contrEquiv1_symm_val (DotDims.plain a b c) b rfl rfl k
  have el : (DotDims.plain a b c).lhsIdx (ix2 p d) ((contrEquiv1 (DotDims.plain a b c) b rfl rfl).symm k) = ix2 p k :=
    funext fun ax => Fin.ext (by
      match ax with
      | ⟨0, _⟩ => rfl
      | ⟨1, _⟩ => exact hk)
  have er : (DotDims.plain a b c).rhsIdx (ix2 p d) ((contrEquiv1 (DotDims.plain a b c) b rfl rfl).symm k) = ix2 k d :=
    funext fun ax => Fin.ext (by
      match ax with
      | ⟨0, _⟩ => exact hk
      | ⟨1, _⟩ => rfl)
  rw [el, er]

/-- Each operation read at (p, d) is the scalar one, narrowing is the identity, the products are sums: the dense step by definition. -/
theorem k0_pay1_apply (x a : Vec Ideal S5888x64 .f32) (w1 : Vec Ideal S64x64 .f32) (b1 : Vec Ideal S1x64 .f32) (w2 : Vec Ideal S64x64 .f32) (b2 g be : Vec Ideal S1x64 .f32) (p : Fin 5888) (d : Fin 64) :
    k0_pay1 (F := Ideal) x a w1 b1 w2 b2 g be (ix2 p d)
      = Cert.Spec.denseF (fun j k => w1 (ix2 j k)) (fun k => b1 (ix2 (0 : Fin 1) k)) (fun k d => w2 (ix2 k d)) (fun d => b2 (ix2 (0 : Fin 1) d)) (fun d => g (ix2 (0 : Fin 1) d)) (fun d => be (ix2 (0 : Fin 1) d)) (fun j => x (ix2 p j) + a (ix2 p j)) d := by
  unfold k0_pay1 Cert.Spec.denseF
  simp only [shapeCast_self, maximumf_apply, addf_apply, mulf_apply, broadcast_apply, truncf_apply, matmul_zero_ix2 dot_S5888x64_S64x64_S5888x64_1_0_0_1_n_n rfl,
    broadcastTo_1b_ab_apply, Ideal.ofBits_def, Ideal.ofBits_zero_f32]

-- A unit axis is read at 0 whatever the coordinate; the other axis keeps its coordinate, which is 0 anyway when that axis has one element.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem cmpi_apply {s : Shape} {w : ℕ} (pr : CmpIPredicate) (x y : IVec s w) (i : s.Idx) :
    cmpi pr x y i = IntOp.cmpi pr (x i) (y i) := rfl

theorem sitofp_ideal {φ : FTy} {w : ℕ} (b : BitVec w) : FloatOps.sitofp (F := Ideal) φ b = (((b.toInt : ℤ) : ℝ) : EReal) := rfl

-- A one-bit result widened with zeros is 0 or 1 as a 32-bit word, far below the sign bit, so its signed reading is the bit.
theorem eqWord (x y : BitVec 32) :
    (((((IntOp.cmpi .eq x y).setWidth 32).toInt : ℤ) : ℝ) : EReal) = if x = y then (1 : EReal) else 0 := by
  unfold IntOp.cmpi
  by_cases h : x = y
  · simp [h]
  · have hb : (x == y) = false := by simpa using h
    simp [h, hb]

/-- Exponent field 127 and zero fraction: the number one. -/
theorem one_f32 : Ideal.ofBits .f32 0x3F800000#32 = 1 := by
  rw [show (1 : EReal) = ((1 : ℝ) : EReal) by norm_cast]
  simp [Ideal.ofBits, Ideal.ieee, -EReal.coe_mul]
  norm_num

theorem k2_pay4_apply (x a : Vec Ideal S2944x64 .f32) (w1 : Vec Ideal S64x64 .f32) (b1 : Vec Ideal S1x64 .f32) (w2 : Vec Ideal S64x64 .f32) (b2 g be : Vec Ideal S1x64 .f32) (p : Fin 2944) (d : Fin 64) :
    max (k2_pay4 (F := Ideal) x a w1 b1 w2 b2 g be (ix2 p d)) 0
      = Cert.Spec.denseF (fun j k => w1 (ix2 j k)) (fun k => b1 (ix2 (0 : Fin 1) k)) (fun k d => w2 (ix2 k d)) (fun d => b2 (ix2 (0 : Fin 1) d)) (fun d => g (ix2 (0 : Fin 1) d)) (fun d => be (ix2 (0 : Fin 1) d)) (fun j => x (ix2 p j) + a (ix2 p j)) d := by
  unfold k2_pay4 Cert.Spec.denseF
  simp only [shapeCast_self, maximumf_apply, addf_apply, mulf_apply, broadcast_apply, truncf_apply, matmul_zero_ix2 dot_S2944x64_S64x64_S2944x64_1_0_0_1_n_n rfl,
    broadcastTo_1b_ab_apply, Ideal.ofBits_def, Ideal.ofBits_zero_f32]

theorem k2_pay3_apply (i : S128x64.Idx) : k2_pay3 (F := Ideal) i = 0 := by
  unfold k2_pay3
  simp only [shapeCast_self, broadcast_apply]
  exact Ideal.ofBits_zero_f32

/-- The left operand is the 0/1 matrix of the test "row counter = graph word", the right one the clamped block. -/
theorem k2_pay1_apply (v35 : FVec Ideal S2944x64 .f32) (bt : Vec Ideal S1x2944 .i32) (prev : Vec Ideal S128x64 .f32) (gi : Fin 128) (k : Fin 64) :
    k2_pay1 (F := Ideal) v35 (Scalar.ofBits .f32 0x00000000#32) bt prev (ix2 gi k)
      = prev (ix2 gi k) + (0 + ∑ q : Fin 2944, (if (BitVec.ofNat 32 gi.val) = bt (ix2 (0 : Fin 1) q) then (1 : EReal) else 0) * max (v35 (ix2 q k)) 0) := by
  unfold k2_pay1
  simp only [shapeCast_self, addf_apply, matmul_zero_ix2 dot_S128x2944_S2944x64_S128x64_1_0_0_1_n_n rfl, truncf_apply, sitofp_apply, extui_apply, cmpi_apply,
    iota_single_apply .tc S128x2944 32 0 iota_S128x2944_d0_w32, maximumf_apply, broadcast_apply, broadcastTo_1b_ab_apply, sitofp_ideal, eqWord,
    Ideal.ofBits_def, Ideal.ofBits_zero_f32, zero_add]

theorem k2_pay2_apply (acc : Vec Ideal S128x64 .f32) (cnt : Vec Ideal S128x1 .f32) (f1w : Vec Ideal S64x32 .f32) (f1b : Vec Ideal S1x32 .f32) (f2w : Vec Ideal S32x1 .f32) (f2b : Vec Ideal S1x1 .f32) (gi : Fin 128) :
    k2_pay2 (F := Ideal) acc cnt f1w f1b f2w f2b (ix2 gi (0 : Fin 1))
      = Cert.Spec.headF (fun k j => f1w (ix2 k j)) (fun j => f1b (ix2 (0 : Fin 1) j)) (fun j => f2w (ix2 j (0 : Fin 1))) (f2b (ix2 (0 : Fin 1) (0 : Fin 1))) (fun k => Ideal.div (acc (ix2 gi k)) (max (cnt (ix2 gi (0 : Fin 1))) 1)) := by
  unfold k2_pay2 Cert.Spec.headF
  simp only [shapeCast_self, addf_apply, matmul_zero_ix2 dot_S128x64_S64x32_S128x32_1_0_0_1_n_n rfl, matmul_zero_ix2 dot_S128x32_S32x1_S128x1_1_0_0_1_n_n rfl, truncf_apply, divf_apply, maximumf_apply,
    broadcast_apply, broadcastTo_1b_ab_apply, broadcastTo_a1_ab_apply, Ideal.ofBits_def, Ideal.ofBits_zero_f32, one_f32]

end Cert.KernelIdeal.ValPay

end
-- ==== Proof.KI.ValHost0b.lean ====
import proofs.«413317_j72215580115596_2_alg».proof.Proof.KI.ValHostLib
import proofs.«413317_j72215580115596_2_alg».proof.Proof.KI.ValPay
import Idealize.ShloMosaic.Lib.StableHlo.Run
import Idealize.ShloMosaic.Lib.KernelVsHost

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Idealize.SL Idealize.SL.Sem

-- Below its length a high-padded vector reads the operand, from there on the padding value.
theorem pad_high_row_apply {α : Type} {n p : ℕ} (x : (⟨1, ![n]⟩ : Shape).Idx → α) {u : Shape} (v : u.Idx → α)
    (hp : (⟨1, ![n]⟩ : Shape).Pads ![0] ![p] ![0] ⟨1, ![n + p]⟩) (hu : 0 < u.numel)
    (hc : (⟨1, ![n + p]⟩ : Shape).ShapeCasts ⟨2, ![1, n + p]⟩) (q : Fin (n + p)) :
    shapeCast ⟨2, ![1, n + p]⟩ (pad ⟨1, ![n + p]⟩ ![0] ![p] ![0] x v hp hu) hc (ix2 (0 : Fin 1) q)
      = if h : q.val < n then x (ix1 ⟨q.val, h⟩) else v (Shape.Idx.first hu) := by
  rw [shapeCast_a_1a_apply]
  by_cases h : q.val < n
  · rw [dif_pos h]
    refine pad_apply_of_inside _ _ _ x v hp hu (ix1 q) (ix1 ⟨q.val, h⟩) fun a => ?_
    match a with
    | ⟨0, _⟩ => show q.val = 0 + q.val * (0 + 1); omega
  · rw [dif_neg h]
    refine pad_apply_of_not_inside _ _ _ x v hp hu (ix1 q) (0 : Fin 1) fun hin => h ?_
    have h3 : (q.val - 0) / (0 + 1) < n := hin.2.2
    simpa using h3

-- The zero vector adds nothing; each word that reads g adds a one.
theorem count_col_apply (words : IVec S100000 32) (g : Fin 128) :
    shapeCast S128x1 (Host.scatterAdd (F := Ideal) scatter_S128_S100000x1_S100000_n_0_0_1
        (broadcastInDim S128 ![] bcast_S_S128 (constant (F := Ideal) S_ .f32 0x00000000#32))
        (broadcastInDim S100000x1 ![0] bcast_S100000_S100000x1_0 words)
        (broadcastInDim S100000 ![] bcast_S_S100000 (constant (F := Ideal) S_ .f32 0x3F800000#32)))
      shapeCasts_S128_S128x1 (ix2 g (0 : Fin 1))
      = 0 + ∑ _r ∈ Finset.univ.filter (fun r : Fin 100000 => (words (ix1 r)).toInt = (g.val : ℤ)), (1 : EReal) := by
  refine (shapeCast_apply _ shapeCasts_S128_S128x1 (ix2 g (0 : Fin 1)) (ix1 g) ?_).trans ?_
  · rw [Shape.rowMajor_val_one, Shape.rowMajor_val_two]
    show g.val = g.val * 1 + 0
    omega
  have hs := Cert.LibRows.scatterAdd_vec_apply (n := 128) (E := 100000) scatter_S128_S100000x1_S100000_n_0_0_1.wf
    (broadcastInDim S128 ![] bcast_S_S128 (constant (F := Ideal) S_ .f32 0x00000000#32))
    (broadcastInDim S100000x1 ![0] bcast_S100000_S100000x1_0 words)
    (broadcastInDim S100000 ![] bcast_S_S100000 (constant (F := Ideal) S_ .f32 0x3F800000#32)) g
  unfold Host.scatterAdd
  rw [Ideal.hostScatterAdd_def]
  refine hs.trans (congrArg₂ (· + ·) Ideal.ofBits_zero_f32 ?_)
  refine Finset.sum_congr (Finset.ext fun e => ?_) (fun e _ => Cert.KernelIdeal.ValPay.one_f32)
  rw [Finset.mem_filter, Finset.mem_filter, col_of_vec_apply _ _ _ (by decide)]

variable (m : (ℓ : Loc nD τ sig) → Buf (Elt Ideal) ℓ) (c : Dev nD)

theorem V5_v25 (j k : Fin 64) : V5 m c main_v25 (ix2 j k) = (argsK m c).W1 (ix3 (0 : Fin 3) j k) := by
  dsimp only [V5, W5, W4, W3, W2, W1, W0, hostOps0_4, hostOps0_3, hostOps0_2, hostOps0_1, hostOps0]; after_results
  exact mat_read _ 0 _ _ 0 rfl j k
theorem V5_v29 (j k : Fin 64) : V5 m c main_v29 (ix2 j k) = (argsK m c).W2 (ix3 (0 : Fin 3) j k) := by
  dsimp only [V5, W5, W4, W3, W2, W1, W0, hostOps0_4, hostOps0_3, hostOps0_2, hostOps0_1, hostOps0]; after_results
  exact mat_read _ 0 _ _ 0 rfl j k
theorem V5_v36 (k : Fin 64) : V5 m c main_v36 (ix2 (0 : Fin 1) k) = (argsK m c).b1 (ix2 (0 : Fin 3) k) := by
  dsimp only [V5, W5, W4, W3, W2, W1, W0, hostOps0_4, hostOps0_3, hostOps0_2, hostOps0_1, hostOps0]; after_results
  exact row_read _ 0 _ _ _ 0 rfl k
theorem V5_v37 (k : Fin 64) : V5 m c main_v37 (ix2 (0 : Fin 1) k) = (argsK m c).b2 (ix2 (0 : Fin 3) k) := by
  dsimp only [V5, W5, W4, W3, W2, W1, W0, hostOps0_4, hostOps0_3, hostOps0_2, hostOps0_1, hostOps0]; after_results
  exact row_read _ 0 _ _ _ 0 rfl k
theorem V5_v38 (k : Fin 64) : V5 m c main_v38 (ix2 (0 : Fin 1) k) = (argsK m c).gamma (ix2 (0 : Fin 3) k) := by
  dsimp only [V5, W5, W4, W3, W2, W1, W0, hostOps0_4, hostOps0_3, hostOps0_2, hostOps0_1, hostOps0]; after_results
  exact row_read _ 0 _ _ _ 0 rfl k
theorem V5_v39 (k : Fin 64) : V5 m c main_v39 (ix2 (0 : Fin 1) k) = (argsK m c).beta (ix2 (0 : Fin 3) k) := by
  dsimp only [V5, W5, W4, W3, W2, W1, W0, hostOps0_4, hostOps0_3, hostOps0_2, hostOps0_1, hostOps0]; after_results
  exact row_read _ 0 _ _ _ 0 rfl k

theorem V5_v2 (q : Fin 100096) : (V5 m c main_v2 (ix2 (0 : Fin 1) q)).toInt = Cert.Spec.graphPad (argsK m c) q.val := by
  dsimp only [V5, W5, W4, W3, W2, W1, W0, hostOps0_4, hostOps0_3, hostOps0_2, hostOps0_1, hostOps0]; after_results
  refine (congrArg BitVec.toInt (pad_high_row_apply (n := 100000) (p := 96) (m ((c : Thread nD τ).loc main_arg2))
    (constantI S_ 32 128#32) pads_S100000_S100096_0960 h_S_ shapeCasts_S100096_S1x100096 q)).trans ?_
  unfold Cert.Spec.graphPad Cert.Spec.graphOf
  by_cases h : q.val < 100000
  · rw [dif_pos h, dif_pos h]; rfl
  · rw [dif_neg h, dif_neg h]; exact (by decide : (128#32 : BitVec 32).toInt = 128)

theorem V5_v11 (g : Fin 128) : V5 m c main_v11 (ix2 g (0 : Fin 1)) = Cert.Spec.count (argsK m c) g := by
  dsimp only [V5, W5, W4, W3, W2, W1, W0, hostOps0_4, hostOps0_3, hostOps0_2, hostOps0_1, hostOps0]; after_results
  exact count_col_apply (m ((c : Thread nD τ).loc main_arg2)) g

end Cert.KernelIdeal.Hand

end
-- ==== Proof.KI.ValHost0c.lean ====
import proofs.«413317_j72215580115596_2_alg».proof.Proof.KI.ValDefs
import Idealize.ShloMosaic.Lib.StableHlo.Run
import Idealize.ShloMosaic.Lib.Pipeline.Value
import Idealize.ShloMosaic.Lib.ValueLayout
import Idealize.ShloMosaic.Lib.KernelVsHost
import Idealize.ShloMosaic.PureOps.Ideal

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo
open Idealize.SL Idealize.SL.Sem

-- Below its row count a matrix padded high by rows reads the operand, from there on the padding value.
theorem pad_high_rows_apply {α : Type} {n p C : ℕ} (x : (⟨2, ![n, C]⟩ : Shape).Idx → α) {u : Shape} (v : u.Idx → α)
    (hp : (⟨2, ![n, C]⟩ : Shape).Pads ![0, 0] ![p, 0] ![0, 0] ⟨2, ![n + p, C]⟩) (hu : 0 < u.numel)
    (r : Fin (n + p)) (k : Fin C) :
    pad ⟨2, ![n + p, C]⟩ ![0, 0] ![p, 0] ![0, 0] x v hp hu (ix2 r k)
      = if h : r.val < n then x (ix2 ⟨r.val, h⟩ k) else v (Shape.Idx.first hu) := by
  by_cases h : r.val < n
  · rw [dif_pos h]
    refine pad_apply_of_inside _ _ _ x v hp hu (ix2 r k) (ix2 ⟨r.val, h⟩ k) fun a => ?_
    match a with
    | ⟨0, _⟩ => show r.val = 0 + r.val * (0 + 1); omega
    | ⟨1, _⟩ => show k.val = 0 + k.val * (0 + 1); omega
  · rw [dif_neg h]
    refine pad_apply_of_not_inside _ _ _ x v hp hu (ix2 r k) (0 : Fin 2) fun hin => h ?_
    have h3 : (r.val - 0) / (0 + 1) < n := hin.2.2
    simpa using h3

-- The conversion of a word is its signed reading, and zero's is 0.
theorem sitofp_zero_f32 : (FloatOps.sitofp (F := Ideal) .f32 (0#32 : BitVec 32) : EReal) = 0 := by
  show (((0#32 : BitVec 32).toInt : ℝ) : EReal) = 0
  rw [show (0#32 : BitVec 32).toInt = 0 from by decide]
  simp

variable (m : (ℓ : Loc nD τ sig) → Buf (Elt Ideal) ℓ) (c : Dev nD)

theorem V5_v0 (r : Fin 100096) (k : Fin 64) : V5 m c main_v0 (ix2 r k) = Cert.Spec.x0 (argsK m c) r.val k := by
  dsimp only [V5, W5, W4, W3, W2, W1, W0, hostOps0_4, hostOps0_3, hostOps0_2, hostOps0_1, hostOps0]; after_results
  refine (pad_high_rows_apply (n := 100000) (p := 96) (C := 64) (m ((c : Thread nD τ).loc main_arg0))
    (sitofp (F := Ideal) .f32 (constantI S_ 32 0#32)) pads_S100000x64_S100096x64_0960_000 h_S_ r k).trans ?_
  unfold Cert.Spec.x0
  by_cases h : r.val < 100000
  · rw [dif_pos h, dif_pos h]; rfl
  · rw [dif_neg h, dif_neg h]; exact sitofp_zero_f32

theorem V5_v4 (e : Fin 1600000) : (V5 m c main_v4 (ix1 e)).toInt = Cert.Spec.src (argsK m c) e := by
  dsimp only [V5, W5, W4, W3, W2, W1, W0, hostOps0_4, hostOps0_3, hostOps0_2, hostOps0_1, hostOps0]; after_results
  exact congrArg BitVec.toInt ((shapeCast_1a_a_apply _ _ e).trans (slice2_axis0_apply 0 _ _ 0 e 0 rfl))

theorem V5_v6 (e : Fin 1600000) : (V5 m c main_v6 (ix1 e)).toInt = Cert.Spec.dst (argsK m c) e := by
  dsimp only [V5, W5, W4, W3, W2, W1, W0, hostOps0_4, hostOps0_3, hostOps0_2, hostOps0_1, hostOps0]; after_results
  exact congrArg BitVec.toInt ((shapeCast_1a_a_apply _ _ e).trans (slice2_axis0_apply 1 _ _ 0 e 1 rfl))

end Cert.KernelIdeal.Hand

end
-- ==== Proof.KI.ValHost12.lean ====
import proofs.«413317_j72215580115596_2_alg».proof.Proof.KI.ValDefs
import proofs.«413317_j72215580115596_2_alg».proof.Proof.KI.ValHostLib
import proofs.«413317_j72215580115596_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

-- Each step leaves a reference it does not write as it was, so the equalities chain.
theorem buf_keep (r : Ref sig .tc) (h : (∀ w, Pipeline.arrRef spec0 w ≠ r) ∧ r ∉ hostOps1_W ∧ (∀ w, Pipeline.arrRef spec1 w ≠ r) ∧ r ∉ hostOps2_W) :
    V6 m c r = V5 m c r ∧ V8 m c r = V5 m c r ∧ V9 m c r = V5 m c r :=
  have e6 := W6_of_ne m c r h.1
  have e8 := (W8_of_ne m c r h.2.2.1).trans ((StableHlo.after_of_writes_sub hostOps1 _ hostOps1_writes h.2.1).trans e6)
  ⟨e6, e8, (StableHlo.after_of_writes_sub hostOps2 _ hostOps2_writes h.2.2.2).trans e8⟩

theorem arg_launch (r : Ref sig .tc) (h : ((∀ w, Pipeline.arrRef spec0 w ≠ r) ∧ r ∉ hostOps1_W ∧ (∀ w, Pipeline.arrRef spec1 w ≠ r) ∧ r ∉ hostOps2_W)
      ∧ r ∉ hostOps0_W ∧ r ∉ hostOps0_1_W ∧ r ∉ hostOps0_2_W ∧ r ∉ hostOps0_3_W ∧ r ∉ hostOps0_4_W) :
    V6 m c r = m ((c : Thread nD τ).loc r) ∧ V8 m c r = m ((c : Thread nD τ).loc r) ∧ V9 m c r = m ((c : Thread nD τ).loc r) :=
  have e : V5 m c r = m ((c : Thread nD τ).loc r) :=
    (StableHlo.after_of_writes_sub hostOps0_4 _ hostOps0_4_writes h.2.2.2.2.2).trans <|
    (StableHlo.after_of_writes_sub hostOps0_3 _ hostOps0_3_writes h.2.2.2.2.1).trans <|
    (StableHlo.after_of_writes_sub hostOps0_2 _ hostOps0_2_writes h.2.2.2.1).trans <|
    (StableHlo.after_of_writes_sub hostOps0_1 _ hostOps0_1_writes h.2.2.1).trans <|
    StableHlo.after_of_writes_sub hostOps0 _ hostOps0_writes h.2.1
  have k := buf_keep m c r h.1
  ⟨k.1.trans e, k.2.1.trans e, k.2.2.trans e⟩

theorem V7_v40 : V7 m c main_v40 = V6 m c main_v40 := StableHlo.after_of_writes_sub hostOps1 _ hostOps1_writes (by decide)
theorem V9_v69 : V9 m c main_v69 = V8 m c main_v69 := StableHlo.after_of_writes_sub hostOps2 _ hostOps2_writes (by decide)

theorem V7_v54 (j k : Fin 64) : V7 m c main_v54 (ix2 j k) = (argsK m c).W1 (ix3 (1 : Fin 3) j k) := by
  dsimp only [V7, W7, hostOps1]; after_results
  exact (mat_read _ 1 _ _ 1 rfl j k).trans (congrFun (arg_launch m c main_arg3 (by decide)).1 _)
theorem V7_v65 (k : Fin 64) : V7 m c main_v65 (ix2 (0 : Fin 1) k) = (argsK m c).b1 (ix2 (1 : Fin 3) k) := by
  dsimp only [V7, W7, hostOps1]; after_results
  exact (row_read _ 1 _ _ _ 1 rfl k).trans (congrFun (arg_launch m c main_arg4 (by decide)).1 _)
theorem V7_v58 (j k : Fin 64) : V7 m c main_v58 (ix2 j k) = (argsK m c).W2 (ix3 (1 : Fin 3) j k) := by
  dsimp only [V7, W7, hostOps1]; after_results
  exact (mat_read _ 1 _ _ 1 rfl j k).trans (congrFun (arg_launch m c main_arg5 (by decide)).1 _)
theorem V7_v66 (k : Fin 64) : V7 m c main_v66 (ix2 (0 : Fin 1) k) = (argsK m c).b2 (ix2 (1 : Fin 3) k) := by
  dsimp only [V7, W7, hostOps1]; after_results
  exact (row_read _ 1 _ _ _ 1 rfl k).trans (congrFun (arg_launch m c main_arg6 (by decide)).1 _)
theorem V7_v67 (k : Fin 64) : V7 m c main_v67 (ix2 (0 : Fin 1) k) = (argsK m c).gamma (ix2 (1 : Fin 3) k) := by
  dsimp only [V7, W7, hostOps1]; after_results
  exact (row_read _ 1 _ _ _ 1 rfl k).trans (congrFun (arg_launch m c main_arg7 (by decide)).1 _)
theorem V7_v68 (k : Fin 64) : V7 m c main_v68 (ix2 (0 : Fin 1) k) = (argsK m c).beta (ix2 (1 : Fin 3) k) := by
  dsimp only [V7, W7, hostOps1]; after_results
  exact (row_read _ 1 _ _ _ 1 rfl k).trans (congrFun (arg_launch m c main_arg8 (by decide)).1 _)

theorem V9_v85 (j k : Fin 64) : V9 m c main_v85 (ix2 j k) = (argsK m c).W1 (ix3 (2 : Fin 3) j k) := by
  dsimp only [V9, W9, hostOps2]; after_results
  exact (mat_read _ 2 _ _ 2 rfl j k).trans (congrFun (arg_launch m c main_arg3 (by decide)).2.1 _)
theorem V9_v96 (k : Fin 64) : V9 m c main_v96 (ix2 (0 : Fin 1) k) = (argsK m c).b1 (ix2 (2 : Fin 3) k) := by
  dsimp only [V9, W9, hostOps2]; after_results
  exact (row_read _ 2 _ _ _ 2 rfl k).trans (congrFun (arg_launch m c main_arg4 (by decide)).2.1 _)
theorem V9_v89 (j k : Fin 64) : V9 m c main_v89 (ix2 j k) = (argsK m c).W2 (ix3 (2 : Fin 3) j k) := by
  dsimp only [V9, W9, hostOps2]; after_results
  exact (mat_read _ 2 _ _ 2 rfl j k).trans (congrFun (arg_launch m c main_arg5 (by decide)).2.1 _)
theorem V9_v97 (k : Fin 64) : V9 m c main_v97 (ix2 (0 : Fin 1) k) = (argsK m c).b2 (ix2 (2 : Fin 3) k) := by
  dsimp only [V9, W9, hostOps2]; after_results
  exact (row_read _ 2 _ _ _ 2 rfl k).trans (congrFun (arg_launch m c main_arg6 (by decide)).2.1 _)
theorem V9_v98 (k : Fin 64) : V9 m c main_v98 (ix2 (0 : Fin 1) k) = (argsK m c).gamma (ix2 (2 : Fin 3) k) := by
  dsimp only [V9, W9, hostOps2]; after_results
  exact (row_read _ 2 _ _ _ 2 rfl k).trans (congrFun (arg_launch m c main_arg7 (by decide)).2.1 _)
theorem V9_v99 (k : Fin 64) : V9 m c main_v99 (ix2 (0 : Fin 1) k) = (argsK m c).beta (ix2 (2 : Fin 3) k) := by
  dsimp only [V9, W9, hostOps2]; after_results
  exact (row_read _ 2 _ _ _ 2 rfl k).trans (congrFun (arg_launch m c main_arg8 (by decide)).2.1 _)

theorem V9_v82 (j : Fin 32) : V9 m c main_v82 (ix2 (0 : Fin 1) j) = (argsK m c).fc1b (ix1 j) := by
  dsimp only [V9, W9, hostOps2]; after_results
  exact (shapeCast_a_1a_apply _ _ 0 j).trans (congrFun (arg_launch m c main_arg10 (by decide)).2.1 _)
theorem V9_v83 : V9 m c main_v83 (ix2 (0 : Fin 1) (0 : Fin 1)) = (argsK m c).fc2b (ix1 (0 : Fin 1)) := by
  dsimp only [V9, W9, hostOps2]; after_results
  exact (shapeCast_a_1a_apply _ _ 0 0).trans (congrFun (arg_launch m c main_arg12 (by decide)).2.1 _)

theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

theorem W11_v101 (g : Fin 128) : W11 m c main_v101 (ix1 g) = W10 m c main_v100 (ix2 g (0 : Fin 1)) := by
  dsimp only [W11, hostOps3]; after_results
  exact shapeCast_a1_a_apply _ _ g

theorem V7_v52 : V7 m c main_v52 = aggTerm (V6 m c main_v40) (V5 m c main_v4) (V5 m c main_v6) := by
  rw [← (buf_keep m c main_v4 (by decide)).1, ← (buf_keep m c main_v6 (by decide)).1]
  dsimp only [V7, W7, V6, hostOps1, aggTerm, gatherRows, selWord]; after_results; all_goals rfl

theorem V9_v81 : V9 m c main_v81 = aggTerm (V8 m c main_v69) (V5 m c main_v4) (V5 m c main_v6) := by
  rw [← (buf_keep m c main_v4 (by decide)).2.1, ← (buf_keep m c main_v6 (by decide)).2.1]
  dsimp only [V9, W9, V8, hostOps2, aggTerm, gatherRows, selWord]; after_results; all_goals rfl

end Cert.KernelIdeal.Hand

end
-- ==== Proof.KI.ValReg01.lean ====
import proofs.«413317_j72215580115596_2_alg».proof.Proof.KI.RegA0
import proofs.«413317_j72215580115596_2_alg».proof.Proof.KI.RegA1
import proofs.«413317_j72215580115596_2_alg».proof.Proof.KI.ValPay
import proofs.«413317_j72215580115596_2_alg».proof.Proof.Spec
import Idealize.ShloMosaic.Lib.Pipeline.Value
import Idealize.ShloMosaic.Lib.ValueIdx

noncomputable section

namespace Cert.KernelIdeal.Hand

open Cert.KernelIdeal Cert.KernelIdeal.Gen Cert.KernelIdeal.ValPay
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

private theorem hz2 : (![0, 0] : Fin 2 → Nat) = fun _ => 0 := funext fun a => by fin_cases a <;> rfl

/-- The dense step of the sum of two tables' row `i 0`, at column `i 1`, its parameters read off six arrays. -/
def denseAt (x a : S100096x64.Idx → EReal) (w1 : S64x64.Idx → EReal) (b1 : S1x64.Idx → EReal) (w2 : S64x64.Idx → EReal)
    (b2 g be : S1x64.Idx → EReal) : S100096x64.Idx → EReal := fun i =>
  Cert.Spec.denseF (fun j k => w1 (ix2 j k)) (fun k => b1 (ix2 (0 : Fin 1) k)) (fun k d => w2 (ix2 k d)) (fun d => b2 (ix2 (0 : Fin 1) d))
    (fun d => g (ix2 (0 : Fin 1) d)) (fun d => be (ix2 (0 : Fin 1) d)) (fun j => x (ix2 (i 0) j) + a (ix2 (i 0) j)) (i 1)

theorem idx0 : ∀ t : Fin cfg0.N, (∀ w : Fin 9, w ∉ ([0, 1, 8] : List (Fin 9)) → ∀ a, (win0 w).index t a = 0)
    ∧ win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0 :=
  (by decide +kernel : ∀ t : Fin grid0.N, _)

/-- 16 · 5888 + 5887 < 100096. -/
theorem rowLt0 (t : Fin cfg0.N) (p : Fin 5888) : t.val * 5888 + p.val < 100096 := by
  have h := t.isLt; have e : cfg0.N = 17 := N_0; have := p.isLt; omega

theorem blk0_0 (c : Dev nD) (t : Fin cfg0.N) (p : Fin 5888) (j : Fin 64) :
    iblk0 (F := Ideal) V c 0 t (ix2 p j) = V c main_v0 (ix2 ⟨t.val * 5888 + p.val, rowLt0 t p⟩ j) :=
  congrArg (V c main_v0) (emb_eq win0_0 t _ _ (Fin.forall_fin_two.2
    ⟨by rw [(idx0 t).2.1]; rfl, by rw [(idx0 t).2.2.1]; exact (Nat.zero_add _).symm⟩))

theorem blk0_1 (c : Dev nD) (t : Fin cfg0.N) (p : Fin 5888) (j : Fin 64) :
    iblk0 (F := Ideal) V c 1 t (ix2 p j) = V c main_v23 (ix2 ⟨t.val * 5888 + p.val, rowLt0 t p⟩ j) :=
  congrArg (V c main_v23) (emb_eq win0_1 t _ _ (Fin.forall_fin_two.2
    ⟨by rw [(idx0 t).2.2.2.1]; rfl, by rw [(idx0 t).2.2.2.2.1]; exact (Nat.zero_add _).symm⟩))

theorem blk0_2 (c : Dev nD) (t : Fin cfg0.N) : (iblk0 (F := Ideal) V c 2 t : Vec Ideal S64x64 .f32) = V c main_v25 :=
  funext fun y => congrArg (V c main_v25) (emb_whole win0_2 t ((idx0 t).1 2 (by decide)) y y fun _ => rfl)
theorem blk0_3 (c : Dev nD) (t : Fin cfg0.N) : (iblk0 (F := Ideal) V c 3 t : Vec Ideal S1x64 .f32) = V c main_v36 :=
  funext fun y => congrArg (V c main_v36) (emb_whole win0_3 t ((idx0 t).1 3 (by decide)) y y fun _ => rfl)
theorem blk0_4 (c : Dev nD) (t : Fin cfg0.N) : (iblk0 (F := Ideal) V c 4 t : Vec Ideal S64x64 .f32) = V c main_v29 :=
  funext fun y => congrArg (V c main_v29) (emb_whole win0_4 t ((idx0 t).1 4 (by decide)) y y fun _ => rfl)
theorem blk0_5 (c : Dev nD) (t : Fin cfg0.N) : (iblk0 (F := Ideal) V c 5 t : Vec Ideal S1x64 .f32) = V c main_v37 :=
  funext fun y => congrArg (V c main_v37) (emb_whole win0_5 t ((idx0 t).1 5 (by decide)) y y fun _ => rfl)
theorem blk0_6 (c : Dev nD) (t : Fin cfg0.N) : (iblk0 (F := Ideal) V c 6 t : Vec Ideal S1x64 .f32) = V c main_v38 :=
  funext fun y => congrArg (V c main_v38) (emb_whole win0_6 t ((idx0 t).1 6 (by decide)) y y fun _ => rfl)
theorem blk0_7 (c : Dev nD) (t : Fin cfg0.N) : (iblk0 (F := Ideal) V c 7 t : Vec Ideal S1x64 .f32) = V c main_v39 :=
  funext fun y => congrArg (V c main_v39) (emb_whole win0_7 t ((idx0 t).1 7 (by decide)) y y fun _ => rfl)

def G0 (c : Dev nD) : S100096x64.Idx → Elt Ideal .f32 :=
  denseAt (V c main_v0) (V c main_v23) (V c main_v25) (V c main_v36) (V c main_v29) (V c main_v37) (V c main_v38) (V c main_v39)

/-- The payload on the eight blocks, each read where it sits in its array. -/
theorem flushed0_eq (c : Dev nD) (t : Fin cfg0.N) :
    (dat0 V c).flushed 8 t = ((cfg0.win 8).blk t).view.read (Elt Ideal) (G0 V c) := by
  show (cfg0.win 8).cut (grid0.coords t) ((dat0 V c).after 8 t) = _
  rw [after0_8]
  unfold out0_8
  rw [View.canon_unit_zero hz2]
  simp only [View.ld_unit_zero (S := S5888x64) hz2, View.ld_unit_zero (S := S64x64) hz2, View.ld_unit_zero (S := S1x64) hz2]
  funext y
  obtain ⟨p, d, rfl⟩ : ∃ (p : Fin 5888) (d : Fin 64), y = ix2 p d := ⟨y 0, y 1, eq_ix2 y⟩
  refine Eq.trans ?_ (congrArg (G0 V c) (emb_eq win0_8 t _ (ix2 ⟨_, rowLt0 t p⟩ d) (Fin.forall_fin_two.2
    ⟨by rw [(idx0 t).2.2.2.2.2.1]; rfl, by rw [(idx0 t).2.2.2.2.2.2]; exact (Nat.zero_add _).symm⟩)).symm)
  refine (k0_pay1_apply _ _ _ _ _ _ _ _ p d).trans ?_
  rw [blk0_2, blk0_3, blk0_4, blk0_5, blk0_6, blk0_7]
  simp only [blk0_0, blk0_1]
  rfl

/-- Row `r` is row `r % 5888` of the block of point `r / 5888`. -/
theorem cover0 (i : S100096x64.Idx) :
    ∃ t : Fin cfg0.N, (cfg0.win 8).flush t = true ∧ i ∈ ((cfg0.win 8).blk t).view.set := by
  have h0 : (i 0).val < 100096 := (i 0).isLt
  have ht : (i 0).val / 5888 < cfg0.N := by rw [show cfg0.N = 17 from N_0]; omega
  have hm : (i 0).val % 5888 < 5888 := Nat.mod_lt _ (by decide)
  exact ⟨⟨_, ht⟩, flush0_8 _, Eq.subst (motive := (· ∈ _)) (emb_eq win0_8 ⟨_, ht⟩ (ix2 ⟨_, hm⟩ (i 1)) i (Fin.forall_fin_two.2
    ⟨by rw [(idx0 _).2.2.2.2.2.1]; exact (Nat.div_add_mod' _ _).symm, by rw [(idx0 _).2.2.2.2.2.2]; exact (Nat.zero_add _).symm⟩))
      (((cfg0.win 8).blk ⟨_, ht⟩).view.emb_mem_set _)⟩

theorem arr0_apply (c : Dev nD) (r : Fin 100096) (k : Fin 64) :
    (dat0 (F := Ideal) V c).arrAt 8 cfg0.N (ix2 r k)
      = Cert.Spec.denseF (fun j k => V c main_v25 (ix2 j k)) (fun k => V c main_v36 (ix2 (0 : Fin 1) k)) (fun k d => V c main_v29 (ix2 k d)) (fun d => V c main_v37 (ix2 (0 : Fin 1) d)) (fun d => V c main_v38 (ix2 (0 : Fin 1) d)) (fun d => V c main_v39 (ix2 (0 : Fin 1) d)) (fun j => HAdd.hAdd (α := EReal) (β := EReal) (γ := EReal) (V c main_v0 (ix2 r j)) (V c main_v23 (ix2 r j))) k := by
  rw [(dat0 V c).arrAt_eq_of_cover 8 (G0 V c) (fun t _ => flushed0_eq V c t) cover0]
  rfl

theorem idx1 : ∀ t : Fin cfg1.N, (∀ w : Fin 9, w ∉ ([0, 1, 8] : List (Fin 9)) → ∀ a, (win1 w).index t a = 0)
    ∧ win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0 :=
  (by decide +kernel : ∀ t : Fin grid1.N, _)

/-- 16 · 5888 + 5887 < 100096. -/
theorem rowLt1 (t : Fin cfg1.N) (p : Fin 5888) : t.val * 5888 + p.val < 100096 := by
  have h := t.isLt; have e : cfg1.N = 17 := N_1; have := p.isLt; omega

theorem blk1_0 (c : Dev nD) (t : Fin cfg1.N) (p : Fin 5888) (j : Fin 64) :
    iblk1 (F := Ideal) V c 0 t (ix2 p j) = V c main_v40 (ix2 ⟨t.val * 5888 + p.val, rowLt1 t p⟩ j) :=
  congrArg (V c main_v40) (emb_eq win1_0 t _ _ (Fin.forall_fin_two.2
    ⟨by rw [(idx1 t).2.1]; rfl, by rw [(idx1 t).2.2.1]; exact (Nat.zero_add _).symm⟩))

theorem blk1_1 (c : Dev nD) (t : Fin cfg1.N) (p : Fin 5888) (j : Fin 64) :
    iblk1 (F := Ideal) V c 1 t (ix2 p j) = V c main_v52 (ix2 ⟨t.val * 5888 + p.val, rowLt1 t p⟩ j) :=
  congrArg (V c main_v52) (emb_eq win1_1 t _ _ (Fin.forall_fin_two.2
    ⟨by rw [(idx1 t).2.2.2.1]; rfl, by rw [(idx1 t).2.2.2.2.1]; exact (Nat.zero_add _).symm⟩))

theorem blk1_2 (c : Dev nD) (t : Fin cfg1.N) : (iblk1 (F := Ideal) V c 2 t : Vec Ideal S64x64 .f32) = V c main_v54 :=
  funext fun y => congrArg (V c main_v54) (emb_whole win1_2 t ((idx1 t).1 2 (by decide)) y y fun _ => rfl)
theorem blk1_3 (c : Dev nD) (t : Fin cfg1.N) : (iblk1 (F := Ideal) V c 3 t : Vec Ideal S1x64 .f32) = V c main_v65 :=
  funext fun y => congrArg (V c main_v65) (emb_whole win1_3 t ((idx1 t).1 3 (by decide)) y y fun _ => rfl)
theorem blk1_4 (c : Dev nD) (t : Fin cfg1.N) : (iblk1 (F := Ideal) V c 4 t : Vec Ideal S64x64 .f32) = V c main_v58 :=
  funext fun y => congrArg (V c main_v58) (emb_whole win1_4 t ((idx1 t).1 4 (by decide)) y y fun _ => rfl)
theorem blk1_5 (c : Dev nD) (t : Fin cfg1.N) : (iblk1 (F := Ideal) V c 5 t : Vec Ideal S1x64 .f32) = V c main_v66 :=
  funext fun y => congrArg (V c main_v66) (emb_whole win1_5 t ((idx1 t).1 5 (by decide)) y y fun _ => rfl)
theorem blk1_6 (c : Dev nD) (t : Fin cfg1.N) : (iblk1 (F := Ideal) V c 6 t : Vec Ideal S1x64 .f32) = V c main_v67 :=
  funext fun y => congrArg (V c main_v67) (emb_whole win1_6 t ((idx1 t).1 6 (by decide)) y y fun _ => rfl)
theorem blk1_7 (c : Dev nD) (t : Fin cfg1.N) : (iblk1 (F := Ideal) V c 7 t : Vec Ideal S1x64 .f32) = V c main_v68 :=
  funext fun y => congrArg (V c main_v68) (emb_whole win1_7 t ((idx1 t).1 7 (by decide)) y y fun _ => rfl)

def G1 (c : Dev nD) : S100096x64.Idx → Elt Ideal .f32 :=
  denseAt (V c main_v40) (V c main_v52) (V c main_v54) (V c main_v65) (V c main_v58) (V c main_v66) (V c main_v67) (V c main_v68)

/-- The payload on the eight blocks, each read where it sits in its array. -/
theorem flushed1_eq (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8]
  unfold out1_8
  rw [View.canon_unit_zero hz2]
  simp only [View.ld_unit_zero (S := S5888x64) hz2, View.ld_unit_zero (S := S64x64) hz2, View.ld_unit_zero (S := S1x64) hz2]
  funext y
  obtain ⟨p, d, rfl⟩ : ∃ (p : Fin 5888) (d : Fin 64), y = ix2 p d := ⟨y 0, y 1, eq_ix2 y⟩
  refine Eq.trans ?_ (congrArg (G1 V c) (emb_eq win1_8 t _ (ix2 ⟨_, rowLt1 t p⟩ d) (Fin.forall_fin_two.2
    ⟨by rw [(idx1 t).2.2.2.2.2.1]; rfl, by rw [(idx1 t).2.2.2.2.2.2]; exact (Nat.zero_add _).symm⟩)).symm)
  refine (k0_pay1_apply _ _ _ _ _ _ _ _ p d).trans ?_
  rw [blk1_2, blk1_3, blk1_4, blk1_5, blk1_6, blk1_7]
  simp only [blk1_0, blk1_1]
  rfl

/-- Row `r` is row `r % 5888` of the block of point `r / 5888`. -/
theorem cover1 (i : S100096x64.Idx) :
    ∃ t : Fin cfg1.N, (cfg1.win 8).flush t = true ∧ i ∈ ((cfg1.win 8).blk t).view.set := by
  have h0 : (i 0).val < 100096 := (i 0).isLt
  have ht : (i 0).val / 5888 < cfg1.N := by rw [show cfg1.N = 17 from N_1]; omega
  have hm : (i 0).val % 5888 < 5888 := Nat.mod_lt _ (by decide)
  exact ⟨⟨_, ht⟩, flush1_8 _, Eq.subst (motive := (· ∈ _)) (emb_eq win1_8 ⟨_, ht⟩ (ix2 ⟨_, hm⟩ (i 1)) i (Fin.forall_fin_two.2
    ⟨by rw [(idx1 _).2.2.2.2.2.1]; exact (Nat.div_add_mod' _ _).symm, by rw [(idx1 _).2.2.2.2.2.2]; exact (Nat.zero_add _).symm⟩))
      (((cfg1.win 8).blk ⟨_, ht⟩).view.emb_mem_set _)⟩

theorem arr1_apply (c : Dev nD) (r : Fin 100096) (k : Fin 64) :
    (dat1 (F := Ideal) V c).arrAt 8 cfg1.N (ix2 r k)
      = Cert.Spec.denseF (fun j k => V c main_v54 (ix2 j k)) (fun k => V c main_v65 (ix2 (0 : Fin 1) k)) (fun k d => V c main_v58 (ix2 k d)) (fun d => V c main_v66 (ix2 (0 : Fin 1) d)) (fun d => V c main_v67 (ix2 (0 : Fin 1) d)) (fun d => V c main_v68 (ix2 (0 : Fin 1) d)) (fun j => HAdd.hAdd (α := EReal) (β := EReal) (γ := EReal) (V c main_v40 (ix2 r j)) (V c main_v52 (ix2 r j))) k := by
  rw [(dat1 V c).arrAt_eq_of_cover 8 (G1 V c) (fun t _ => flushed1_eq V c t) cover1]
  rfl

end Cert.KernelIdeal.Hand

end
-- ==== Proof.SpecG.lean ====
import proofs.«413317_j72215580115596_2_alg».proof.Proof.Spec

noncomputable section

namespace Cert.Spec

def blockSumG (gw : ℕ → ℤ) (h : ℕ → Fin 64 → EReal) (t : ℕ) (g : Fin 128) (k : Fin 64) : EReal :=
  ∑ q : Fin 2944, (if (g.val : ℤ) = gw (t * 2944 + q.val) then (1 : EReal) else 0) * h (t * 2944 + q.val) k

def accG (gw : ℕ → ℤ) (h : ℕ → Fin 64 → EReal) : ℕ → Fin 128 → Fin 64 → EReal
  | 0 => fun g k => 0 + (0 + blockSumG gw h 0 g k)
  | t + 1 => fun g k => accG gw h t g k + (0 + blockSumG gw h (t + 1) g k)

theorem accG_graphPad (A : Args) (h : ℕ → Fin 64 → EReal) (t : ℕ) : accG (graphPad A) h t = accK A h t := by
  induction t with
  | zero => rfl
  | succ t ih => exact congrArg (fun f g k => f g k + (0 + blockSum A h (t + 1) g k)) ih

-- Block t reads rows t * 2944 + q with q < 2944, all below 34 * 2944 = 100096.
theorem accG_congr (gw gw' : ℕ → ℤ) (h h' : ℕ → Fin 64 → EReal)
    (hg : ∀ r, r < 100096 → gw r = gw' r) (hh : ∀ r, r < 100096 → ∀ k, h r k = h' r k) :
    ∀ t, t < 34 → ∀ g k, accG gw h t g k = accG gw' h' t g k := by
  have hb : ∀ t, t < 34 → ∀ g k, blockSumG gw h t g k = blockSumG gw' h' t g k := fun t ht g k =>
    Finset.sum_congr rfl fun q _ => by
      have hq : t * 2944 + q.val < 100096 := by have := q.isLt; omega
      rw [hg _ hq, hh _ hq]
  intro t
  induction t with
  | zero => exact fun ht g k => congrArg (fun x : EReal => 0 + (0 + x)) (hb 0 ht g k)
  | succ t ih => exact fun ht g k => congrArg₂ (fun a b : EReal => a + (0 + b)) (ih (by omega) g k) (hb _ ht g k)

-- A selected row is at most n - 1.
theorem layer_congr_rows (A : Args) (n : ℕ) (hn : 0 < n) (i : Fin 3) (h h' : ℕ → Fin 64 → EReal)
    (hh : ∀ r, r < n → ∀ k, h r k = h' r k) : ∀ r, r < n → ∀ k, layer A n i h r k = layer A n i h' r k :=
  fun r hr k => congrArg (fun a => dense A i a k) (funext fun j => congrArg₂ (· + ·) (hh r hr j)
    (Finset.sum_congr rfl fun e _ => hh _ (lt_of_le_of_lt (min_le_right _ _) (Nat.sub_lt hn Nat.one_pos)) j))

end Cert.Spec

end
-- ==== Proof.KI.ValReg2.lean ====
import proofs.«413317_j72215580115596_2_alg».proof.Proof.KI.RegR2
import proofs.«413317_j72215580115596_2_alg».proof.Proof.KI.ValPay
import proofs.«413317_j72215580115596_2_alg».proof.Proof.SpecG
import Idealize.ShloMosaic.Lib.Pipeline.Value
import Idealize.ShloMosaic.Lib.ValueIdx

noncomputable section

namespace Cert.KernelIdeal.Hand

open Cert.KernelIdeal Cert.KernelIdeal.Gen Cert.KernelIdeal.ValPay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row r's graph word, read signed; 128 beyond the table. -/
def gwV (c : Dev nD) : ℕ → ℤ := fun r => if hr : r < 100096 then (V c main_v2 (ix2 (0 : Fin 1) ⟨r, hr⟩)).toInt else 128
/-- The dense step on the sum of the two tables' row r; zero beyond the table. -/
def h3V (c : Dev nD) : ℕ → Fin 64 → EReal := fun r k => if hr : r < 100096 then
    Cert.Spec.denseF (fun j k => V c main_v85 (ix2 j k)) (fun k => V c main_v96 (ix2 (0 : Fin 1) k)) (fun k d => V c main_v89 (ix2 k d)) (fun d => V c main_v97 (ix2 (0 : Fin 1) d)) (fun d => V c main_v98 (ix2 (0 : Fin 1) d)) (fun d => V c main_v99 (ix2 (0 : Fin 1) d)) (fun j => @HAdd.hAdd EReal EReal EReal instHAdd (V c main_v69 (ix2 ⟨r, hr⟩ j)) (V c main_v81 (ix2 ⟨r, hr⟩ j))) k else 0

theorem val2_idxRows : ∀ t : Fin cfg2.N, win2_0.index t (0 : Fin 2) = t.val ∧ win2_0.index t (1 : Fin 2) = 0
    ∧ win2_1.index t (0 : Fin 2) = t.val ∧ win2_1.index t (1 : Fin 2) = 0
    ∧ win2_8.index t (0 : Fin 2) = 0 ∧ win2_8.index t (1 : Fin 2) = t.val :=
  (by decide +kernel : ∀ t : Fin grid2.N, _)

theorem val2_idxWhole : ∀ t : Fin cfg2.N, ∀ w : Fin 15, w ∉ ([0, 1, 8] : List (Fin 15)) → ∀ a, (win2 w).index t a = 0 :=
  (by decide +kernel : ∀ t : Fin grid2.N, _)

/-- 33 · 2944 + 2943 < 100096. -/
theorem val2_rowLt (t : Fin cfg2.N) (q : Fin 2944) : t.val * 2944 + q.val < 100096 := by
  have h := t.isLt; have e : cfg2.N = 34 := N_2; have := q.isLt; omega

theorem val2_blk0 (c : Dev nD) (t : Fin cfg2.N) (q : Fin 2944) (j : Fin 64) :
    iblk2 (F := Ideal) V c 0 t (ix2 q j) = V c main_v69 (ix2 ⟨t.val * 2944 + q.val, val2_rowLt t q⟩ j) :=
  congrArg (V c main_v69) (emb_eq win2_0 t _ _ (Fin.forall_fin_two.2
    ⟨by rw [(val2_idxRows t).1]; rfl, by rw [(val2_idxRows t).2.1]; exact (Nat.zero_add _).symm⟩))

theorem val2_blk1 (c : Dev nD) (t : Fin cfg2.N) (q : Fin 2944) (j : Fin 64) :
    iblk2 (F := Ideal) V c 1 t (ix2 q j) = V c main_v81 (ix2 ⟨t.val * 2944 + q.val, val2_rowLt t q⟩ j) :=
  congrArg (V c main_v81) (emb_eq win2_1 t _ _ (Fin.forall_fin_two.2
    ⟨by rw [(val2_idxRows t).2.2.1]; rfl, by rw [(val2_idxRows t).2.2.2.1]; exact (Nat.zero_add _).symm⟩))

theorem val2_blk8 (c : Dev nD) (t : Fin cfg2.N) (q : Fin 2944) :
    iblk2 (F := Ideal) V c 8 t (ix2 (0 : Fin 1) q) = V c main_v2 (ix2 (0 : Fin 1) ⟨t.val * 2944 + q.val, val2_rowLt t q⟩) :=
  congrArg (V c main_v2) (emb_eq win2_8 t _ _ (Fin.forall_fin_two.2
    ⟨by rw [(val2_idxRows t).2.2.2.2.1]; rfl, by rw [(val2_idxRows t).2.2.2.2.2]; rfl⟩))

theorem val2_blk2 (c : Dev nD) (t : Fin cfg2.N) : (iblk2 (F := Ideal) V c 2 t : Vec Ideal S64x64 .f32) = V c main_v85 :=
  funext fun y => congrArg (V c main_v85) (emb_whole win2_2 t (val2_idxWhole t 2 (by decide)) y y fun _ => rfl)
theorem val2_blk3 (c : Dev nD) (t : Fin cfg2.N) : (iblk2 (F := Ideal) V c 3 t : Vec Ideal S1x64 .f32) = V c main_v96 :=
  funext fun y => congrArg (V c main_v96) (emb_whole win2_3 t (val2_idxWhole t 3 (by decide)) y y fun _ => rfl)
theorem val2_blk4 (c : Dev nD) (t : Fin cfg2.N) : (iblk2 (F := Ideal) V c 4 t : Vec Ideal S64x64 .f32) = V c main_v89 :=
  funext fun y => congrArg (V c main_v89) (emb_whole win2_4 t (val2_idxWhole t 4 (by decide)) y y fun _ => rfl)
theorem val2_blk5 (c : Dev nD) (t : Fin cfg2.N) : (iblk2 (F := Ideal) V c 5 t : Vec Ideal S1x64 .f32) = V c main_v97 :=
  funext fun y => congrArg (V c main_v97) (emb_whole win2_5 t (val2_idxWhole t 5 (by decide)) y y fun _ => rfl)
theorem val2_blk6 (c : Dev nD) (t : Fin cfg2.N) : (iblk2 (F := Ideal) V c 6 t : Vec Ideal S1x64 .f32) = V c main_v98 :=
  funext fun y => congrArg (V c main_v98) (emb_whole win2_6 t (val2_idxWhole t 6 (by decide)) y y fun _ => rfl)
theorem val2_blk7 (c : Dev nD) (t : Fin cfg2.N) : (iblk2 (F := Ideal) V c 7 t : Vec Ideal S1x64 .f32) = V c main_v99 :=
  funext fun y => congrArg (V c main_v99) (emb_whole win2_7 t (val2_idxWhole t 7 (by decide)) y y fun _ => rfl)
theorem val2_blk9 (c : Dev nD) (t : Fin cfg2.N) : (iblk2 (F := Ideal) V c 9 t : Vec Ideal S128x1 .f32) = V c main_v11 :=
  funext fun y => congrArg (V c main_v11) (emb_whole win2_9 t (val2_idxWhole t 9 (by decide)) y y fun _ => rfl)
theorem val2_blk10 (c : Dev nD) (t : Fin cfg2.N) : (iblk2 (F := Ideal) V c 10 t : Vec Ideal S64x32 .f32) = V c main_arg9 :=
  funext fun y => congrArg (V c main_arg9) (emb_whole win2_10 t (val2_idxWhole t 10 (by decide)) y y fun _ => rfl)
theorem val2_blk11 (c : Dev nD) (t : Fin cfg2.N) : (iblk2 (F := Ideal) V c 11 t : Vec Ideal S1x32 .f32) = V c main_v82 :=
  funext fun y => congrArg (V c main_v82) (emb_whole win2_11 t (val2_idxWhole t 11 (by decide)) y y fun _ => rfl)
theorem val2_blk12 (c : Dev nD) (t : Fin cfg2.N) : (iblk2 (F := Ideal) V c 12 t : Vec Ideal S32x1 .f32) = V c main_arg11 :=
  funext fun y => congrArg (V c main_arg11) (emb_whole win2_12 t (val2_idxWhole t 12 (by decide)) y y fun _ => rfl)
theorem val2_blk13 (c : Dev nD) (t : Fin cfg2.N) : (iblk2 (F := Ideal) V c 13 t : Vec Ideal S1x1 .f32) = V c main_v83 :=
  funext fun y => congrArg (V c main_v83) (emb_whole win2_13 t (val2_idxWhole t 13 (by decide)) y y fun _ => rfl)

theorem val2_ofNat_toInt : ∀ g : Fin 128, (BitVec.ofNat 32 g.val).toInt = (g.val : ℤ) := by decide

/-- A graph number below 128 reads signed as itself, so word equality is integer equality. -/
theorem val2_eqWord_iff (g : Fin 128) (w : BitVec 32) : BitVec.ofNat 32 g.val = w ↔ (g.val : ℤ) = w.toInt := by
  rw [← val2_ofNat_toInt g]
  exact BitVec.toInt_inj.symm

theorem val2_pre_apply (c : Dev nD) (t : Fin cfg2.N) (q : Fin 2944) (k : Fin 64) :
    max (pre2 (F := Ideal) V c t (ix2 q k)) 0 = h3V V c (t.val * 2944 + q.val) k := by
  unfold pre2 h3V
  rw [dif_pos (val2_rowLt t q), k2_pay4_apply, val2_blk2, val2_blk3, val2_blk4, val2_blk5, val2_blk6, val2_blk7]
  simp only [val2_blk0, val2_blk1]

theorem val2_block_apply (c : Dev nD) (t : Fin cfg2.N) (g : Fin 128) (k : Fin 64) :
    (∑ q : Fin 2944, (if BitVec.ofNat 32 g.val = iblk2 (F := Ideal) V c 8 t (ix2 (0 : Fin 1) q) then (1 : EReal) else 0)
        * max (pre2 (F := Ideal) V c t (ix2 q k)) 0)
      = Cert.Spec.blockSumG (gwV V c) (h3V V c) t.val g k := by
  unfold Cert.Spec.blockSumG
  refine Finset.sum_congr rfl fun q _ => ?_
  rw [val2_pre_apply, val2_blk8]
  congr 1
  refine if_congr ?_ rfl rfl
  rw [val2_eqWord_iff]
  unfold gwV
  rw [dif_pos (val2_rowLt t q)]

/-- Induction on t: the fold starts at zero plus block 0's contribution, and each step adds the next block's. -/
theorem accAt2_apply (c : Dev nD) (t : ℕ) (ht : t < cfg2.N) (g : Fin 128) (k : Fin 64) :
    accAt2 (F := Ideal) V c t ht (ix2 g k) = Cert.Spec.accG (gwV V c) (h3V V c) t g k := by
  induction t with
  | zero =>
    rw [accAt2_zero, k2_pay1_apply, k2_pay3_apply, val2_block_apply]
    rfl
  | succ n ih =>
    rw [accAt2_succ, k2_pay1_apply, ih, val2_block_apply]
    rfl

theorem val2_flush14_iff (t : Fin cfg2.N) : (cfg2.win 14).flush t = true ↔ t = tLast2 := by
  rw [flush2_14]
  have e : cfg2.N = 34 := N_2
  have h := t.isLt
  constructor
  · intro hm
    apply Fin.ext
    show t.val = 33
    omega
  · rintro rfl
    rfl

theorem val2_flushed14_eq (c : Dev nD) (t : Fin cfg2.N) (hf : (cfg2.win 14).flush t = true) :
    (dat2 (F := Ideal) V c).flushed 14 t = ((cfg2.win 14).blk t).view.read (Elt Ideal) (out2_14 (F := Ideal) V c) := by
  obtain rfl := (val2_flush14_iff t).mp hf
  show (cfg2.win 14).cut (cfg2.grid.coords tLast2) ((dat2 (F := Ideal) V c).after 14 tLast2) = _
  rw [after2_14_last]
  exact funext fun y => congrArg (out2_14 (F := Ideal) V c)
    (emb_whole win2_14 tLast2 (val2_idxWhole tLast2 14 (by decide)) y _ fun _ => rfl).symm

/-- A block at index zero on every axis and of the array's extent holds every index. -/
theorem val2_final14 (c : Dev nD) : (dat2 (F := Ideal) V c).arrAt 14 cfg2.N = out2_14 (F := Ideal) V c :=
  (dat2 (F := Ideal) V c).arrAt_eq_of_cover 14 _ (val2_flushed14_eq V c) fun i => ⟨tLast2, (val2_flush14_iff tLast2).mpr rfl,
    (emb_whole win2_14 tLast2 (val2_idxWhole tLast2 14 (by decide)) i i fun _ => rfl) ▸ ((cfg2.win 14).blk tLast2).view.emb_mem_set i⟩

theorem arr2_apply (c : Dev nD) (g : Fin 128) :
    (dat2 (F := Ideal) V c).arrAt 14 cfg2.N (ix2 g (0 : Fin 1))
      = Cert.Spec.headF (fun k j => V c main_arg9 (ix2 k j)) (fun j => V c main_v82 (ix2 (0 : Fin 1) j)) (fun j => V c main_arg11 (ix2 j (0 : Fin 1))) (V c main_v83 (ix2 (0 : Fin 1) (0 : Fin 1))) (fun k => Ideal.div (Cert.Spec.accG (gwV V c) (h3V V c) 33 g k) (max (V c main_v11 (ix2 g (0 : Fin 1))) 1)) := by
  rw [val2_final14]
  unfold out2_14
  rw [k2_pay2_apply, val2_blk9, val2_blk10, val2_blk11, val2_blk12, val2_blk13]
  simp only [accAt2_apply]

end Cert.KernelIdeal.Hand

end
-- ==== Proof.KI.Value.lean ====
import proofs.«413317_j72215580115596_2_alg».proof.Proof.KI.ValHost0
import proofs.«413317_j72215580115596_2_alg».proof.Proof.KI.ValHost0b
import proofs.«413317_j72215580115596_2_alg».proof.Proof.KI.ValHost0c
import proofs.«413317_j72215580115596_2_alg».proof.Proof.KI.ValHost12
import proofs.«413317_j72215580115596_2_alg».proof.Proof.KI.ValReg01
import proofs.«413317_j72215580115596_2_alg».proof.Proof.KI.ValReg2
import proofs.«413317_j72215580115596_2_alg».proof.Proof.SpecG

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec

variable (m : (ℓ : Loc nD τ sig) → Buf (Elt Ideal) ℓ) (c : Dev nD)

theorem denseF_congr {W1 W1' : Fin 64 → Fin 64 → EReal} {b1 b1' : Fin 64 → EReal} {W2 W2' : Fin 64 → Fin 64 → EReal}
    {b2 b2' ga ga' be be' a a' : Fin 64 → EReal}
    (h1 : ∀ j k, W1 j k = W1' j k) (h2 : ∀ k, b1 k = b1' k) (h3 : ∀ k d, W2 k d = W2' k d) (h4 : ∀ d, b2 d = b2' d)
    (h5 : ∀ d, ga d = ga' d) (h6 : ∀ d, be d = be' d) (h7 : ∀ j, a j = a' j) (d : Fin 64) :
    denseF W1 b1 W2 b2 ga be a d = denseF W1' b1' W2' b2' ga' be' a' d := by
  rw [funext₂ h1, funext h2, funext₂ h3, funext h4, funext h5, funext h6, funext h7]

theorem headF_congr {f1 f1' : Fin 64 → Fin 32 → EReal} {c1 c1' : Fin 32 → EReal} {f2 f2' : Fin 32 → EReal} {c2 c2' : EReal}
    {p p' : Fin 64 → EReal}
    (h1 : ∀ k j, f1 k j = f1' k j) (h2 : ∀ j, c1 j = c1' j) (h3 : ∀ j, f2 j = f2' j) (h4 : c2 = c2') (h5 : ∀ k, p k = p' k) :
    headF f1 c1 f2 c2 p = headF f1' c1' f2' c2' p' := by
  rw [funext₂ h1, funext h2, funext h3, h4, funext h5]

-- The stage's filter and summand are the specification's, read through the two vectors of edge words.
theorem agg_of_term (hprev : FVec Ideal S100096x64 .f32) (r : Fin 100096) (k : Fin 64) :
    aggTerm hprev (V5 m c main_v4) (V5 m c main_v6) (ix2 r k) = 0 + agg (argsK m c) 100096 (tabP hprev) r.val k := by
  rw [aggTerm_apply]
  exact congrArg (fun t => (0 : EReal) + t) (Finset.sum_congr
    (Finset.filter_congr fun e _ => Iff.of_eq (congrArg (fun t => t = (r.val : ℤ)) (V5_v6 m c e)))
    (fun e _ => congrArg (fun s => tabP hprev (selRow 100096 s) k) (V5_v4 m c e)))

-- A layer reads its table only on the rows below 100096, where the table is T; zero plus the aggregate is the aggregate.
theorem layer_step (i : Fin 3) (hprev hagg hout : FVec Ideal S100096x64 .f32) (T : ℕ → Fin 64 → EReal)
    (hT : ∀ (r : Fin 100096) (k : Fin 64), hprev (ix2 r k) = T r.val k)
    (hagg_eq : hagg = aggTerm hprev (V5 m c main_v4) (V5 m c main_v6))
    (hout_eq : ∀ (r : Fin 100096) (k : Fin 64), hout (ix2 r k) = dense (argsK m c) i (fun j => hprev (ix2 r j) + hagg (ix2 r j)) k)
    (r : Fin 100096) (k : Fin 64) : hout (ix2 r k) = layer (argsK m c) 100096 i T r.val k := by
  rw [hout_eq, ← layer_congr_rows (argsK m c) 100096 (by norm_num) i (tabP hprev) T
    (fun r' hr' k' => (tabP_of_lt hprev ⟨r', hr'⟩ k').trans (hT ⟨r', hr'⟩ k')) r.val r.isLt k]
  unfold layer
  refine congrArg (fun a => dense (argsK m c) i a k) (funext fun j => ?_)
  rw [hagg_eq, agg_of_term, zero_add, tabP_of_lt]

theorem tab1 (r : Fin 100096) (k : Fin 64) :
    V6 m c main_v40 (ix2 r k) = layer (argsK m c) 100096 0 (x0 (argsK m c)) r.val k := by
  refine layer_step m c 0 (V5 m c main_v0) (V5 m c main_v23) (V6 m c main_v40) _ (V5_v0 m c) (V5_v23 m c) (fun r k => ?_) r k
  rw [show V6 m c main_v40 = (dat0 (V5 m) c).arrAt 8 cfg0.N from W6_arr m c 8, arr0_apply]
  unfold dense
  exact denseF_congr (V5_v25 m c) (V5_v36 m c) (V5_v29 m c) (V5_v37 m c) (V5_v38 m c) (V5_v39 m c) (fun j => rfl) k

theorem tab2 (r : Fin 100096) (k : Fin 64) :
    V8 m c main_v69 (ix2 r k) = layer (argsK m c) 100096 1 (layer (argsK m c) 100096 0 (x0 (argsK m c))) r.val k := by
  refine layer_step m c 1 (V6 m c main_v40) (V7 m c main_v52) (V8 m c main_v69) _ (tab1 m c) (V7_v52 m c) (fun r k => ?_) r k
  rw [show V8 m c main_v69 = (dat1 (V7 m) c).arrAt 8 cfg1.N from W8_arr m c 8, arr1_apply, V7_v40]
  unfold dense
  exact denseF_congr (V7_v54 m c) (V7_v65 m c) (V7_v58 m c) (V7_v66 m c) (V7_v67 m c) (V7_v68 m c) (fun j => rfl) k

theorem tab3 (r : ℕ) (hr : r < 100096) (k : Fin 64) : h3V (V9 m) c r k = feats (argsK m c) 100096 r k := by
  refine layer_step m c 2 (V8 m c main_v69) (V9 m c main_v81) (fun i => h3V (V9 m) c (i 0).val (i 1)) _ (tab2 m c) (V9_v81 m c)
    (fun r k => ?_) ⟨r, hr⟩ k
  show h3V (V9 m) c r.val k = _
  unfold h3V
  rw [dif_pos r.isLt, V9_v69]
  unfold dense
  exact denseF_congr (V9_v85 m c) (V9_v96 m c) (V9_v89 m c) (V9_v97 m c) (V9_v98 m c) (V9_v99 m c) (fun j => rfl) k

theorem result_K (g : Fin 128) : W11 m c main_v101 (ix1 g) = outK (argsK m c) g := by
  rw [W11_v101, show W10 m c main_v100 = (dat2 (V9 m) c).arrAt 14 cfg2.N from W10_arr m c 14, arr2_apply]
  unfold outK head
  refine headF_congr (fun k j => congrFun (arg_launch m c main_arg9 (by decide)).2.2 (ix2 k j)) (V9_v82 m c)
    (fun j => congrFun (arg_launch m c main_arg11 (by decide)).2.2 (ix2 j (0 : Fin 1))) (V9_v83 m c) (fun k => ?_)
  rw [accG_congr (gwV (V9 m) c) (graphPad (argsK m c)) (h3V (V9 m) c) (feats (argsK m c) 100096)
    (fun r hr => by unfold gwV; rw [dif_pos hr, (buf_keep m c main_v2 (by decide)).2.2, V5_v2])
    (fun r hr k => tab3 m c r hr k) 33 (by norm_num) g k,
    accG_graphPad, (buf_keep m c main_v11 (by decide)).2.2, V5_v11]

end Cert.KernelIdeal.Hand

end
-- ==== Proof.RefImports.lean ====
import proofs.«413317_j72215580115596_2_alg».proof.Proof.Gen.ReferenceIdeal.Run
import proofs.«413317_j72215580115596_2_alg».proof.Proof.Gen.ReferenceIdeal.Read
-- ==== Proof.RefTail.lean ====
import proofs.«413317_j72215580115596_2_alg».proof.Proof.RefImports
import proofs.«413317_j72215580115596_2_alg».proof.Proof.Spec
import proofs.«413317_j72215580115596_2_alg».proof.Proof.LibRows
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefTail

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

def tailV (a2 : IVec S100000 32) (a9 : FVec Ideal S64x32 .f32) (a10 : FVec Ideal S32 .f32) (a11 : FVec Ideal S32x1 .f32)
    (a12 : FVec Ideal S1 .f32) (h3 : FVec Ideal S100000x64 .f32) : FVec Ideal S128 .f32 :=
  shapeCast _
    (addf
      (Host.dotGeneral dot_S128x32_S32x1_S128x1_1_0_0_1_n_n none
        (maximumf
          (addf
            (Host.dotGeneral dot_S128x64_S64x32_S128x32_1_0_0_1_n_n none
              (Host.divf
                (Host.scatterAdd scatter_S128x64_S100000x1_S100000x64_1_0_0_1 (val_main_v131 (F := Ideal)) (val_main_v132 (F := Ideal) a2) h3)
                (val_main_v137 (F := Ideal) a2))
              a9)
            (val_main_v141 (F := Ideal) a10))
          (val_main_call6_v0 (F := Ideal)))
        a11)
      (val_main_v146 (F := Ideal) a12))
    shapeCasts_S128x1_S128

theorem tail_pool_apply (a2 : IVec S100000 32) (h3 : FVec Ideal S100000x64 .f32) (T : ℕ → Fin 64 → EReal)
    (hT : ∀ (r : Fin 100000) (k : Fin 64), h3 (ix2 r k) = T r.val k) (g : Fin 128) (k : Fin 64) :
    Host.scatterAdd scatter_S128x64_S100000x1_S100000x64_1_0_0_1 (val_main_v131 (F := Ideal)) (val_main_v132 (F := Ideal) a2) h3 (ix2 g k)
      = 0 + ∑ r ∈ Finset.univ.filter (fun r : Fin 100000 => (a2 (ix1 r)).toInt = (g.val : ℤ)), T r.val k := by
  show Ideal.hostScatterAdd (Cert.LibRows.rowsScatter 128 100000 64 scatter_S128x64_S100000x1_S100000x64_1_0_0_1_wf)
    _ _ h3 (ix2 g k) = _
  rw [Cert.LibRows.scatterAdd_rows_apply, val_main_v131_apply, val_main_cst_12_apply]
  have hw (e : Fin 100000) : val_main_v132 (F := Ideal) a2 (ix2 e (0 : Fin 1)) = a2 (ix1 e) := by
    rw [val_main_v132_apply]
    exact congrArg a2 (funext fun a => match a with | ⟨0, _⟩ => rfl)
  simp only [hw, hT]
  exact congrArg (· + _) Ideal.ofBits_zero_f32

-- The count is the same scatter with a one for every node; the divisor clamps it below at one.
theorem tail_den_apply (a2 : IVec S100000 32) (g : Fin 128) (k : Fin 64) :
    val_main_v137 (F := Ideal) a2 (ix2 g k)
      = max (0 + ∑ _r ∈ Finset.univ.filter (fun r : Fin 100000 => (a2 (ix1 r)).toInt = (g.val : ℤ)), (1 : EReal)) 1 := by
  have e1 : idx_main_v136 (idx_main_v137 (ix2 g k)) = ix1 g := funext fun a => match a with | ⟨0, _⟩ => rfl
  rw [val_main_v137_apply, val_main_v136_apply, e1, val_main_v135_apply, val_main_v134_apply, val_main_cst_13_apply]
  show max (Ideal.hostScatterAdd (Cert.LibRows.vecScatter 128 100000 scatter_S128_S100000x1_S100000_n_0_0_1_wf)
    _ (val_main_v129 (F := Ideal) a2) _ (ix1 g)) (Ideal.ofBits .f32 0x3F800000#32) = _
  rw [Ideal.ofBits_one_f32, Cert.LibRows.scatterAdd_vec_apply, val_main_v128_apply, val_main_cst_11_apply]
  have hw (e : Fin 100000) : val_main_v129 (F := Ideal) a2 (ix2 e (0 : Fin 1)) = a2 (ix1 e) := by
    rw [val_main_v129_apply]
    exact congrArg a2 (funext fun a => match a with | ⟨0, _⟩ => rfl)
  simp only [hw, val_main_v127_apply, val_main_cst_10_apply]
  exact congrArg (max · 1)
    (congrArg₂ (· + ·) Ideal.ofBits_zero_f32 (Finset.sum_congr rfl fun _ _ => Ideal.ofBits_one_f32))

theorem tail_bias1_apply (a10 : FVec Ideal S32 .f32) (g : Fin 128) (j : Fin 32) :
    val_main_v141 (F := Ideal) a10 (ix2 g j) = a10 (ix1 j) := by
  rw [val_main_v141_apply, val_main_v140_apply]
  exact congrArg a10 (funext fun a => match a with | ⟨0, _⟩ => rfl)

theorem tail_bias2_apply (a12 : FVec Ideal S1 .f32) (g : Fin 128) :
    val_main_v146 (F := Ideal) a12 (ix2 g (0 : Fin 1)) = a12 (ix1 (0 : Fin 1)) := by
  rw [val_main_v146_apply, val_main_v145_apply]
  exact congrArg a12 (funext fun a => match a with | ⟨0, _⟩ => rfl)

theorem tail_relu0_apply (g : Fin 128) (j : Fin 32) : val_main_call6_v0 (F := Ideal) (ix2 g j) = 0 := by
  rw [val_main_call6_v0_apply, val_main_call6_cst_apply]; exact Ideal.ofBits_zero_f32

theorem tail_dotGeneral_ix2 {a b c : ℕ} (D : DotDims ⟨2, ![a, b]⟩ ⟨2, ![b, c]⟩ ⟨2, ![a, c]⟩)
    (hr : D.contr.rank = 1) (hs : D.contr.size ⟨0, by omega⟩ = b)
    (l0 : ∀ (i : (⟨2, ![a, c]⟩ : Shape).Idx) (q : D.contr.Idx), (D.lhsIdx i q 0).val = (i 0).val)
    (l1 : ∀ (i : (⟨2, ![a, c]⟩ : Shape).Idx) (q : D.contr.Idx), (D.lhsIdx i q 1).val = (q ⟨0, by omega⟩).val)
    (r0 : ∀ (i : (⟨2, ![a, c]⟩ : Shape).Idx) (q : D.contr.Idx), (D.rhsIdx i q 0).val = (q ⟨0, by omega⟩).val)
    (r1 : ∀ (i : (⟨2, ![a, c]⟩ : Shape).Idx) (q : D.contr.Idx), (D.rhsIdx i q 1).val = (i 1).val)
    {φ₁ φ₂ : FTy} (l : FVec Ideal ⟨2, ![a, b]⟩ φ₁) (r : FVec Ideal ⟨2, ![b, c]⟩ φ₂) (p : Fin a) (d : Fin c) :
    Host.dotGeneral D none l r (ix2 p d) = ∑ k : Fin b, l (ix2 p k) * r (ix2 k d) := by
  simp only [Host.dotGeneral]
  rw [Ideal.dotGeneral_apply, ← Equiv.sum_comp (contrEquiv1 D b hr hs).symm]
  refine Finset.sum_congr rfl fun k _ => ?_
  have hk := contrEquiv1_symm_val D b hr hs k
  have el : D.lhsIdx (ix2 p d) ((contrEquiv1 D b hr hs).symm k) = ix2 p k := funext fun ax => Fin.ext
    (match ax with | ⟨0, _⟩ => l0 _ _ | ⟨1, _⟩ => (l1 _ _).trans hk)
  have er : D.rhsIdx (ix2 p d) ((contrEquiv1 D b hr hs).symm k) = ix2 k d := funext fun ax => Fin.ext
    (match ax with | ⟨0, _⟩ => (r0 _ _).trans hk | ⟨1, _⟩ => r1 _ _)
  rw [el, er]

theorem tailV_apply (a2 : IVec S100000 32) (a9 : FVec Ideal S64x32 .f32) (a10 : FVec Ideal S32 .f32) (a11 : FVec Ideal S32x1 .f32)
    (a12 : FVec Ideal S1 .f32) (h3 : FVec Ideal S100000x64 .f32) (T : ℕ → Fin 64 → EReal)
    (hT : ∀ (r : Fin 100000) (k : Fin 64), h3 (ix2 r k) = T r.val k) (g : Fin 128) :
    tailV a2 a9 a10 a11 a12 h3 (ix1 g)
      = Cert.Spec.headF (fun k j => a9 (ix2 k j)) (fun j => a10 (ix1 j)) (fun j => a11 (ix2 j (0 : Fin 1))) (a12 (ix1 (0 : Fin 1)))
          (fun k => Ideal.div (0 + ∑ r ∈ Finset.univ.filter (fun r : Fin 100000 => (a2 (ix1 r)).toInt = (g.val : ℤ)), T r.val k)
            (max (0 + ∑ _r ∈ Finset.univ.filter (fun r : Fin 100000 => (a2 (ix1 r)).toInt = (g.val : ℤ)), (1 : EReal)) 1)) := by
  unfold tailV
  rw [shapeCast_apply _ shapeCasts_S128x1_S128 (ix1 g) (ix2 g (0 : Fin 1))
    (by rewrite [Shape.rowMajor_val_two, Shape.rowMajor_val_one]; show g.val * 1 + 0 = g.val; omega)]
  simp only [addf_apply, maximumf_apply, hostDivf_apply,
    tail_dotGeneral_ix2 dot_S128x32_S32x1_S128x1_1_0_0_1_n_n rfl rfl lhs_main_v144_0 lhs_main_v144_1 rhs_main_v144_0 rhs_main_v144_1,
    tail_dotGeneral_ix2 dot_S128x64_S64x32_S128x32_1_0_0_1_n_n rfl rfl lhs_main_v139_0 lhs_main_v139_1 rhs_main_v139_0 rhs_main_v139_1, tail_bias1_apply, tail_bias2_apply, tail_relu0_apply, tail_den_apply,
    tail_pool_apply a2 h3 T hT, Cert.Spec.headF]

end Cert.ReferenceIdeal.RefTail

end
-- ==== Proof.RefVal.lean ====
import proofs.«413317_j72215580115596_2_alg».proof.Proof.RefImports
import proofs.«413317_j72215580115596_2_alg».proof.Proof.Spec
import proofs.«413317_j72215580115596_2_alg».proof.Proof.LibRows
import proofs.«413317_j72215580115596_2_alg».proof.Proof.RefTail
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Cert.LibRows

def argsOf (a0 : FVec Ideal S100000x64 .f32) (a1 : IVec S2x1600000 32) (a2 : IVec S100000 32)
    (a3 : FVec Ideal S3x64x64 .f32) (a4 : FVec Ideal S3x64 .f32) (a5 : FVec Ideal S3x64x64 .f32)
    (a6 a7 a8 : FVec Ideal S3x64 .f32) (a9 : FVec Ideal S64x32 .f32) (a10 : FVec Ideal S32 .f32)
    (a11 : FVec Ideal S32x1 .f32) (a12 : FVec Ideal S1 .f32) : Cert.Spec.Args :=
  ⟨a0, a1, a2, a3, a4, a5, a6, a7, a8, a9, a10, a11, a12⟩

theorem selWord (s : BitVec 32) :
    (Scalar.select (IntOp.cmpi .slt s 0#32) (IntOp.addi s 100000#32) s).toInt
      = if s.toInt < 0 then s.toInt + ((100000 : ℕ) : ℤ) else s.toInt := by
  have hc : IntOp.cmpi .slt s 0#32 = BitVec.ofBool (s.slt 0#32) := rfl
  have ha : IntOp.addi s 100000#32 = s + 100000#32 := rfl
  rw [hc, ha]
  unfold Scalar.select
  have hlt : s.slt 0#32 = decide (s.toInt < 0) := by
    simp [BitVec.slt]
  by_cases h : s.toInt < 0
  · have hb : BitVec.ofBool (s.slt 0#32) = 1 := by rw [hlt]; simp [h]
    rw [if_pos hb, if_pos h, BitVec.toInt_add]
    have h1 := BitVec.le_toInt s
    have h2 : (100000#32 : BitVec 32).toInt = 100000 := by decide
    rw [h2]
    simp at h1
    rw [Int.bmod_eq_of_le] <;> simp <;> omega
  · have hb : ¬ BitVec.ofBool (s.slt 0#32) = 1 := by rw [hlt]; simp [h]
    rw [if_neg hb, if_neg h]

section Words
variable (a1 : IVec S2x1600000 32)

-- A flattened row of the edge list reads the edge list at that row: the flat position of (0, e) is e.
theorem srcWord_apply (e : Fin 1600000) :
    val_main_v9 (F := Ideal) a1 (ix2 e (0 : Fin 1))
      = Scalar.select (IntOp.cmpi .slt (a1 (ix2 (0 : Fin 2) e)) 0#32) (IntOp.addi (a1 (ix2 (0 : Fin 2) e)) 100000#32)
          (a1 (ix2 (0 : Fin 2) e)) := by
  have hi : idx_main_v9 (ix2 e (0 : Fin 1)) = ix1 e := funext fun a => match a with | ⟨0, _⟩ => rfl
  have h1 : val_main_v1 (F := Ideal) a1 (ix1 e) = a1 (ix2 (0 : Fin 2) e) := by
    rw [val_main_v1_apply, val_main_v0_apply]
    exact congrArg a1 (funext fun a => match a with | ⟨0, _⟩ => rfl | ⟨1, _⟩ => Fin.ext (Nat.mod_eq_of_lt e.isLt))
  rw [val_main_v9_apply, hi, val_main_v8_apply, val_main_v5_apply, val_main_v7_apply, val_main_v4_apply,
    val_main_v6_apply, val_main_c_apply, val_main_c_0_apply, h1]

theorem dstWord_apply (e : Fin 1600000) :
    val_main_v12 (F := Ideal) a1 (ix2 e (0 : Fin 1)) = a1 (ix2 (1 : Fin 2) e) := by
  have hi : idx_main_v12 (ix2 e (0 : Fin 1)) = ix1 e := funext fun a => match a with | ⟨0, _⟩ => rfl
  rw [val_main_v12_apply, hi, val_main_v3_apply, val_main_v2_apply]
  exact congrArg a1 (funext fun a => match a with | ⟨0, _⟩ => rfl | ⟨1, _⟩ => Fin.ext (Nat.mod_eq_of_lt e.isLt))

end Words

def splat (b : BitVec 32) : FVec Ideal S100000x64 .f32 :=
  broadcastInDim S100000x64 ![] bcast_S_S100000x64 (constant S_ .f32 b)

theorem splat_zero (i : S100000x64.Idx) : splat 0x00000000#32 i = 0 := by
  unfold splat
  rw [broadcastInDim_scalar_apply]
  exact Ideal.ofBits_zero_f32

theorem splat_one (i : S100000x64.Idx) : splat 0x3F800000#32 i = 1 := by
  unfold splat
  rw [broadcastInDim_scalar_apply]
  exact Ideal.ofBits_one_f32

def wOf (l : ℕ) (hs : S3x64x64.Slices ![l, 0, 0] S1x64x64) (x : FVec Ideal S3x64x64 .f32) : FVec Ideal S64x64 .f32 :=
  shapeCast _ (extractStridedSlice S1x64x64 ![l, 0, 0] x hs) shapeCasts_S1x64x64_S64x64

theorem wOf_apply (l : ℕ) (hl : l < 3) (hs : S3x64x64.Slices ![l, 0, 0] S1x64x64) (x : FVec Ideal S3x64x64 .f32)
    (j k : Fin 64) : wOf l hs x (ix2 j k) = x (ix3 (⟨l, hl⟩ : Fin 3) j k) := by
  unfold wOf
  refine (shapeCast_apply _ shapeCasts_S1x64x64_S64x64 (ix2 j k) (ix3 (0 : Fin 1) j k) (by
    rw [Shape.rowMajor_val_three, Shape.rowMajor_val_two]
    show (0 * 64 + j.val) * 64 + k.val = j.val * 64 + k.val
    omega)).trans ?_
  exact extractStridedSlice_apply ![l, 0, 0] x hs (ix3 (0 : Fin 1) j k) (ix3 (⟨l, hl⟩ : Fin 3) j k) (fun a =>
    match a with
    | ⟨0, _⟩ => rfl
    | ⟨1, _⟩ => (Nat.zero_add _).symm
    | ⟨2, _⟩ => (Nat.zero_add _).symm)

def bOf (l : ℕ) (hs : S3x64.Slices ![l, 0] S1x64) (x : FVec Ideal S3x64 .f32) : FVec Ideal S100000x64 .f32 :=
  broadcastInDim S100000x64 ![0, 1] bcast_S1x64_S100000x64_0_1
    (broadcastInDim S1x64 ![1] bcast_S64_S1x64_1 (shapeCast _ (extractStridedSlice S1x64 ![l, 0] x hs) shapeCasts_S1x64_S64))

theorem bOf_apply (l : ℕ) (hl : l < 3) (hs : S3x64.Slices ![l, 0] S1x64) (x : FVec Ideal S3x64 .f32)
    (r : Fin 100000) (k : Fin 64) : bOf l hs x (ix2 r k) = x (ix2 (⟨l, hl⟩ : Fin 3) k) := by
  unfold bOf
  refine (broadcastInDim_apply _ bcast_S1x64_S100000x64_0_1 _ (ix2 r k) (ix2 (0 : Fin 1) k) (fun a =>
    match a with
    | ⟨0, _⟩ => rfl
    | ⟨1, _⟩ => rfl)).trans ?_
  refine (broadcastInDim_apply _ bcast_S64_S1x64_1 _ (ix2 (0 : Fin 1) k) (ix1 k) (fun a =>
    match a with
    | ⟨0, _⟩ => rfl)).trans ?_
  refine (shapeCast_apply _ shapeCasts_S1x64_S64 (ix1 k) (ix2 (0 : Fin 1) k) (by
    rw [Shape.rowMajor_val_two, Shape.rowMajor_val_one]
    show 0 * 64 + k.val = k.val
    omega)).trans ?_
  exact extractStridedSlice_apply ![l, 0] x hs (ix2 (0 : Fin 1) k) (ix2 (⟨l, hl⟩ : Fin 3) k) (fun a =>
    match a with
    | ⟨0, _⟩ => rfl
    | ⟨1, _⟩ => (Nat.zero_add _).symm)

theorem scatterAdd_eq {s si u : Shape} {w : ℕ} (d : ScatterDims s si u) (x : FVec Ideal s .f32) (idx : IVec si w)
    (upd : FVec Ideal u .f32) : Host.scatterAdd d x idx upd = Ideal.hostScatterAdd d x idx upd := rfl

section Layer
variable (A : Cert.Spec.Args)

def mixV (h : FVec Ideal S100000x64 .f32) : FVec Ideal S100000x64 .f32 :=
  addf (mulf (splat 0x3F800000#32) h)
    (Host.scatterAdd scatter_S100000x64_S1600000x1_S1600000x64_1_0_0_1 (splat 0x00000000#32) (val_main_v12 (F := Ideal) A.ei)
      (Host.gather gather_S100000x64_S1600000x1_S1600000x64_1_0_n_n_0_1_164 h (val_main_v9 (F := Ideal) A.ei)))

def denseV (l : ℕ) (hs3 : S3x64x64.Slices ![l, 0, 0] S1x64x64) (hs2 : S3x64.Slices ![l, 0] S1x64)
    (x : FVec Ideal S100000x64 .f32) : FVec Ideal S100000x64 .f32 :=
  maximumf (addf (mulf (addf (Host.dotGeneral dot_S100000x64_S64x64_S100000x64_1_0_0_1_n_n none
      (maximumf (addf (Host.dotGeneral dot_S100000x64_S64x64_S100000x64_1_0_0_1_n_n none x (wOf l hs3 A.W1)) (bOf l hs2 A.b1))
        (splat 0x00000000#32))
      (wOf l hs3 A.W2)) (bOf l hs2 A.b2)) (bOf l hs2 A.gamma)) (bOf l hs2 A.beta)) (splat 0x00000000#32)

theorem denseV_apply (l : ℕ) (hl : l < 3) (hs3 : S3x64x64.Slices ![l, 0, 0] S1x64x64) (hs2 : S3x64.Slices ![l, 0] S1x64)
    (x : FVec Ideal S100000x64 .f32) (r : Fin 100000) (d : Fin 64) :
    denseV A l hs3 hs2 x (ix2 r d) = Cert.Spec.dense A (⟨l, hl⟩ : Fin 3) (fun j => x (ix2 r j)) d := by
  unfold denseV Cert.Spec.dense Cert.Spec.denseF
  simp only [maximumf_apply, addf_apply, mulf_apply, bOf_apply l hl, wOf_apply l hl, splat_zero,
    RefTail.tail_dotGeneral_ix2 dot_S100000x64_S64x64_S100000x64_1_0_0_1_n_n rfl rfl lhs_main_v19_0 lhs_main_v19_1 rhs_main_v19_0 rhs_main_v19_1]

-- The gather reads the wrapped and clamped source row; the scatter adds it onto the row the destination word names.
theorem mixV_apply (h : FVec Ideal S100000x64 .f32) (H : ℕ → Fin 64 → EReal)
    (hH : ∀ (r : Fin 100000) (k : Fin 64), h (ix2 r k) = H r.val k) (r : Fin 100000) (j : Fin 64) :
    mixV A h (ix2 r j) = H r.val j + Cert.Spec.agg A 100000 H r.val j := by
  unfold mixV
  rw [addf_apply, mulf_apply, scatterAdd_eq, splat_one, one_mul, hH,
    show scatter_S100000x64_S1600000x1_S1600000x64_1_0_0_1 = rowsScatter 100000 1600000 64 scatter_S100000x64_S1600000x1_S1600000x64_1_0_0_1_wf from rfl,
    scatterAdd_rows_apply, splat_zero, zero_add,
    show gather_S100000x64_S1600000x1_S1600000x64_1_0_n_n_0_1_164 = rowsGather 100000 1600000 64 gather_S100000x64_S1600000x1_S1600000x64_1_0_n_n_0_1_164_wf from rfl]
  refine congrArg (H r.val j + ·)
    (Finset.sum_congr (Finset.filter_congr fun e _ => by rw [dstWord_apply]; rfl) fun e _ => ?_)
  rw [gather_rows_apply (Nat.succ_pos 99999), hH]
  refine congrArg (fun m => H m j) ?_
  show min (val_main_v9 (F := Ideal) A.ei (ix2 e (0 : Fin 1))).toInt.toNat (100000 - 1) = _
  rw [srcWord_apply, selWord]
  rfl

-- A layer is the dense map applied to the mixed table, and both are read row by row.
theorem layerV_apply (l : ℕ) (hl : l < 3) (hs3 : S3x64x64.Slices ![l, 0, 0] S1x64x64) (hs2 : S3x64.Slices ![l, 0] S1x64)
    (h : FVec Ideal S100000x64 .f32) (H : ℕ → Fin 64 → EReal)
    (hH : ∀ (r : Fin 100000) (k : Fin 64), h (ix2 r k) = H r.val k) (r : Fin 100000) (d : Fin 64) :
    denseV A l hs3 hs2 (mixV A h) (ix2 r d) = Cert.Spec.layer A 100000 (⟨l, hl⟩ : Fin 3) H r.val d := by
  rw [denseV_apply A l hl, Cert.Spec.layer]
  exact congrArg (fun a => Cert.Spec.dense A _ a d) (funext fun j => mixV_apply A h H hH r j)

theorem feat1 (r : Fin 100000) (k : Fin 64) :
    val_main_v44 (F := Ideal) A.x A.ei A.W1 A.b1 A.W2 A.b2 A.gamma A.beta (ix2 r k)
      = Cert.Spec.layer A 100000 (0 : Fin 3) (Cert.Spec.x0 A) r.val k :=
  layerV_apply A 0 (by decide) slices_S3x64x64_S1x64x64_0_0_0 slices_S3x64_S1x64_0_0 A.x _
    (fun r k => by unfold Cert.Spec.x0; rw [dif_pos r.isLt]) r k

theorem feat2 (r : Fin 100000) (k : Fin 64) :
    val_main_v85 (F := Ideal) A.x A.ei A.W1 A.b1 A.W2 A.b2 A.gamma A.beta (ix2 r k)
      = Cert.Spec.layer A 100000 (1 : Fin 3) (Cert.Spec.layer A 100000 (0 : Fin 3) (Cert.Spec.x0 A)) r.val k :=
  layerV_apply A 1 (by decide) slices_S3x64x64_S1x64x64_1_0_0 slices_S3x64_S1x64_1_0 _ _ (feat1 A) r k

theorem feat3 (r : Fin 100000) (k : Fin 64) :
    val_main_v126 (F := Ideal) A.x A.ei A.W1 A.b1 A.W2 A.b2 A.gamma A.beta (ix2 r k) = Cert.Spec.feats A 100000 r.val k :=
  layerV_apply A 2 (by decide) slices_S3x64x64_S1x64x64_2_0_0 slices_S3x64_S1x64_2_0 _ _ (feat2 A) r k

end Layer

-- The last operations read the table after three layers; the rest is the specification's head unfolded.
theorem result_eq (a0 : FVec Ideal S100000x64 .f32) (a1 : IVec S2x1600000 32) (a2 : IVec S100000 32)
    (a3 : FVec Ideal S3x64x64 .f32) (a4 : FVec Ideal S3x64 .f32) (a5 : FVec Ideal S3x64x64 .f32)
    (a6 a7 a8 : FVec Ideal S3x64 .f32) (a9 : FVec Ideal S64x32 .f32) (a10 : FVec Ideal S32 .f32)
    (a11 : FVec Ideal S32x1 .f32) (a12 : FVec Ideal S1 .f32) :
    val_main_v148 (F := Ideal) a0 a1 a2 a3 a4 a5 a6 a7 a8 a9 a10 a11 a12
      = fun i : S128.Idx => Cert.Spec.outR (argsOf a0 a1 a2 a3 a4 a5 a6 a7 a8 a9 a10 a11 a12) (i 0) := by
  funext i
  obtain ⟨g, rfl⟩ : ∃ g : Fin 128, i = ix1 g := ⟨i 0, eq_ix1 i⟩
  exact RefTail.tailV_apply a2 a9 a10 a11 a12 _ _ (feat3 (argsOf a0 a1 a2 a3 a4 a5 a6 a7 a8 a9 a10 a11 a12)) g

end Cert.ReferenceIdeal.RefValue

end
-- ==== Proof.Bridge.lean ====
import proofs.«413317_j72215580115596_2_alg».proof.Proof.Spec
import Mathlib.Algebra.BigOperators.Fin
import Mathlib.Algebra.BigOperators.Group.Finset.Basic

noncomputable section

namespace Cert.Spec

open Idealize.ShloMosaic Idealize.ShloMosaic.ValueIdx

variable (A : Args)

-- A word in [0, 100000) is neither wrapped nor clamped in a table of at least 100000 rows.
theorem selRow_of_mem (n : ℕ) (hn : 100000 ≤ n) (s : ℤ) (h0 : 0 ≤ s) (h1 : s < 100000) :
    selRow n s = s.toNat := by
  unfold selRow
  rw [if_neg (not_lt.mpr h0)]
  exact min_eq_left (by omega)

-- A layer reads its table only at its own row and at the selected source rows, all below 100000.
theorem layer_congr (hsrc : ∀ e : Fin 1600000, 0 ≤ src A e ∧ src A e < 100000) (i : Fin 3)
    (h h' : ℕ → Fin 64 → EReal) (hh : ∀ r, r < 100000 → ∀ k, h r k = h' r k) :
    ∀ r, r < 100000 → ∀ k, layer A 100096 i h r k = layer A 100000 i h' r k := by
  intro r hr k
  refine congrArg (fun a => dense A i a k)
    (funext fun j => congrArg₂ (· + ·) (hh r hr j) (Finset.sum_congr rfl fun e _ => ?_))
  obtain ⟨h0, h1⟩ := hsrc e
  rw [selRow_of_mem 100096 (by norm_num) _ h0 h1, selRow_of_mem 100000 (le_refl _) _ h0 h1]
  exact hh _ (by omega) j

def ind (g : Fin 128) (r : ℕ) : EReal := if (g.val : ℤ) = graphPad A r then 1 else 0

theorem blockSum_eq (h : ℕ → Fin 64 → EReal) (t : ℕ) (g : Fin 128) (k : Fin 64) :
    blockSum A h t g k = ∑ q ∈ Finset.range 2944, ind A g (t * 2944 + q) * h (t * 2944 + q) k :=
  Fin.sum_univ_eq_sum_range (fun q => ind A g (t * 2944 + q) * h (t * 2944 + q) k) 2944

-- The blocks are consecutive ranges of 2944 rows.
theorem accK_eq (h : ℕ → Fin 64 → EReal) (t : ℕ) (g : Fin 128) (k : Fin 64) :
    accK A h t g k = ∑ r ∈ Finset.range ((t + 1) * 2944), ind A g r * h r k := by
  induction t with
  | zero =>
    show 0 + (0 + blockSum A h 0 g k) = _
    rw [zero_add, zero_add, blockSum_eq, zero_add, one_mul]
    exact Finset.sum_congr rfl fun q _ => by rw [zero_mul, zero_add]
  | succ t ih =>
    show accK A h t g k + (0 + blockSum A h (t + 1) g k) = _
    rw [ih, zero_add, blockSum_eq, show (t + 1 + 1) * 2944 = (t + 1) * 2944 + 2944 by ring,
      Finset.sum_range_add]

-- The last 96 rows carry the graph word 128, which is no graph; a node's row counts exactly when its word is the graph.
theorem accK_last (h : ℕ → Fin 64 → EReal) (g : Fin 128) (k : Fin 64) :
    accK A h 33 g k
      = 0 + ∑ r ∈ Finset.univ.filter (fun r : Fin 100000 => graphOf A r = (g.val : ℤ)), h r.val k := by
  rw [accK_eq, show (33 + 1) * 2944 = 100000 + 96 by norm_num, Finset.sum_range_add,
    Finset.sum_eq_zero (s := Finset.range 96) fun x _ => by
      unfold ind graphPad
      rw [dif_neg (by omega), if_neg (by have := g.isLt; omega), zero_mul],
    add_zero, zero_add, Finset.sum_filter, ← Fin.sum_univ_eq_sum_range (fun r => ind A g r * h r k) 100000]
  refine Finset.sum_congr rfl fun r _ => ?_
  unfold ind graphPad
  rw [dif_pos r.isLt]
  by_cases hg : graphOf A r = (g.val : ℤ)
  · rw [if_pos hg, if_pos hg.symm, one_mul]
  · rw [if_neg hg, if_neg (Ne.symm hg), zero_mul]

theorem outK_eq_outR (A : Args) (hsrc : ∀ e : Fin 1600000, 0 ≤ src A e ∧ src A e < 100000) (g : Fin 128) :
    outK A g = outR A g := by
  unfold outK outR
  refine congrArg (head A) (funext fun k => congrArg (Ideal.div · _) ?_)
  rw [accK_last]
  exact congrArg (0 + ·) (Finset.sum_congr rfl fun r _ =>
    layer_congr A hsrc 2 _ _ (layer_congr A hsrc 1 _ _ (layer_congr A hsrc 0 _ _ fun _ _ _ => rfl)) r.val r.isLt k)

end Cert.Spec

end
-- ==== Proof.PreDecode.lean ====
import proofs.«413317_j72215580115596_2_alg».proof.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

theorem slice_row0 {α : Type} (x : S2x1600000.Idx → α) (h : S2x1600000.Slices ![0, 0] S1x1600000) (e : Fin 1600000) :
    extractStridedSlice S1x1600000 ![0, 0] x h (ix2 (0 : Fin 1) e) = x (ix2 (0 : Fin 2) e) :=
  congrArg x (funext fun a => Fin.ext (match a with | ⟨0, _⟩ => rfl | ⟨1, _⟩ => Nat.zero_add _))

variable [Facts]

-- The last conjunct is an and-reduction of two signed compares of every word of row 0, against 0 and against 100000.
theorem src_in_range {F : FTy → Type} [FloatOps F] (a0 : FVec F S100000x64 .f32) (a1 : IVec S2x1600000 32)
    (a2 : IVec S100000 32) (a3 : FVec F S3x64x64 .f32) (a4 : FVec F S3x64 .f32) (a5 : FVec F S3x64x64 .f32)
    (a6 : FVec F S3x64 .f32) (a7 : FVec F S3x64 .f32) (a8 : FVec F S3x64 .f32) (a9 : FVec F S64x32 .f32)
    (a10 : FVec F S32 .f32) (a11 : FVec F S32x1 .f32) (a12 : FVec F S1 .f32)
    (h : Cert.Pre_finite_inputs.fn (F := F) a0 a1 a2 a3 a4 a5 a6 a7 a8 a9 a10 a11 a12 = fun _ => 1#1) (e : Fin 1600000) :
    0 ≤ (a1 (ValueIdx.ix2 (0 : Fin 2) e)).toInt ∧ (a1 (ValueIdx.ix2 (0 : Fin 2) e)).toInt < 100000 := by
  have h0 := congrFun h ix0
  dsimp only [fn, fn_part1, fn_part2, fn_part3] at h0
  obtain ⟨hge, hlt⟩ := IntOp.andi_eq_one.1
    (Host.reduce_andi_all _ _ _ _ _ (IntOp.andi_eq_one.1 h0).2 (ix2 (0 : Fin 1) e))
  have hs := slice_row0 a1 Facts.slices_S2x1600000_S1x1600000_0_0 e
  have hge' : BitVec.ofBool ((0#32 : BitVec 32).sle (a1 (ix2 (0 : Fin 2) e))) = 1#1 := hs ▸ hge
  have hlt' : BitVec.ofBool ((a1 (ix2 (0 : Fin 2) e)).slt 100000#32) = 1#1 := hs ▸ hlt
  have z : (0#32 : BitVec 32).toInt = 0 := by decide
  have c : (100000#32 : BitVec 32).toInt = 100000 := StableHlo.Predicate.toInt_ofNat_small 100000 (by norm_num)
  exact ⟨z ▸ BitVec.sle_iff_toInt_le.1 ((StableHlo.Predicate.ofBool_eq_one_iff _).1 hge'),
    c ▸ BitVec.slt_iff_toInt_lt.1 ((StableHlo.Predicate.ofBool_eq_one_iff _).1 hlt')⟩

end Cert.PreDecode

end
-- ==== Proof.lean ====
import proofs.«413317_j72215580115596_2_alg».proof.Defs
import proofs.«413317_j72215580115596_2_alg».proof.Proof.Gen.Kernel
import proofs.«413317_j72215580115596_2_alg».proof.Proof.Gen.KernelIdeal
import proofs.«413317_j72215580115596_2_alg».proof.Proof.Gen.ReferenceIdeal
import proofs.«413317_j72215580115596_2_alg».proof.Proof.Gen.Pre_finite_inputs
import proofs.«413317_j72215580115596_2_alg».proof.Proof.KB.Run
import proofs.«413317_j72215580115596_2_alg».proof.Proof.KI.Run
import proofs.«413317_j72215580115596_2_alg».proof.Proof.KI.Value
import proofs.«413317_j72215580115596_2_alg».proof.Proof.RefVal
import proofs.«413317_j72215580115596_2_alg».proof.Proof.Bridge
import proofs.«413317_j72215580115596_2_alg».proof.Proof.PreDecode
import proofs.«413317_j72215580115596_2_alg».proof.Proof.RefImports
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ =>
  (θ_run Cert.Kernel.defs _ _).mono (fun _ h c => (h c).2) (Cert.Kernel.Hand.run_val (F := Bits) m ρ)

theorem frame_ki : Cert.frame_KernelIdeal := fun m ρ _ =>
  (θ_run Cert.KernelIdeal.defs _ _).mono (fun _ h c => (h c).2) (Cert.KernelIdeal.Hand.run_val (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

-- Under the precondition every source word of the edge list is a node's row number, and there the two specifications agree.
theorem algebraic : Cert.algebraic_KernelIdeal_ReferenceIdeal := by
  intro m ρ m' ρ' hpre hagree
  refine ⟨fun c => Cert.KernelIdeal.Hand.W11 m c Cert.KernelIdeal.main_v101, Cert.KernelIdeal.Hand.run_val (F := Ideal) m ρ, ?_⟩
  refine (θ_run Cert.ReferenceIdeal.defs _ _).mono (fun r h c => ⟨(h c).1.trans ?_, (h c).2⟩)
    (Cert.ReferenceIdeal.Value.run (F := Ideal) m' ρ')
  refine ((Cert.ReferenceIdeal.Read.val_main_v148_eq m' c).trans
    (Cert.ReferenceIdeal.RefValue.result_eq _ _ _ _ _ _ _ _ _ _ _ _ _)).trans ?_
  funext i
  obtain ⟨g, rfl⟩ : ∃ g : Fin 128, i = ix1 g := ⟨i 0, eq_ix1 i⟩
  have hsrc : ∀ e : Fin 1600000, 0 ≤ Cert.Spec.src (Cert.KernelIdeal.Hand.argsK m c) e
      ∧ Cert.Spec.src (Cert.KernelIdeal.Hand.argsK m c) e < 100000 :=
    fun e => Cert.PreDecode.src_in_range _ _ _ _ _ _ _ _ _ _ _ _ _ (hpre c) e
  show _ = Cert.KernelIdeal.Hand.W11 m c Cert.KernelIdeal.main_v101 (ix1 g)
  rw [Cert.KernelIdeal.Hand.result_K m c g, Cert.Spec.outK_eq_outR _ hsrc g,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
